-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x17 : Shape := ⟨2, ![262144, 17]⟩
abbrev S17x512x16 : Shape := ⟨3, ![17, 512, 16]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S17x512x16 : S_.BroadcastsInDim S17x512x16 (![] : Fin 0 → Fin S17x512x16.rank)
  reducesTo_S17x512x16_S_d0_1_2 : S17x512x16.ReducesTo [0, 1, 2] S_
  h_S_ : 0 < S_.numel
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S262144x17 : S_.BroadcastsInDim S262144x17 (![] : Fin 0 → Fin S262144x17.rank)
  reducesTo_S262144x17_S_d0_1 : S262144x17.ReducesTo [0, 1] S_

variable [Facts]

def fn_part4 {F : FTy → Type} [FloatOps F] (main_arg0 : IVec S262144x17 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S262144x17 32 := broadcastInDim S262144x17 ![] bcast_S_S262144x17 main_c_28
  let main_v75 : IVec S262144x17 1 := cmpi .sge main_arg0 main_v74
  let main_c_29 : IVec S_ 1 := constantI S_ 1 1#1
  let main_v76 : IVec S_ 1 := (fun x v => Host.reduce IntOp.andi x v reducesTo_S262144x17_S_d0_1 h_S_) main_v75 main_c_29
  let main_v77 : IVec S_ 1 := andi main_v73 main_v76
  let main_c_30 : IVec S_ 32 := constantI S_ 32 512#32
  let main_v78 : IVec S262144x17 32 := broadcastInDim S262144x17 ![] bcast_S_S262144x17 main_c_30
  let main_v79 : IVec S262144x17 1 := cmpi .slt main_arg0 main_v78
  let main_c_31 : IVec S_ 1 := constantI S_ 1 1#1
  let main_v80 : IVec S_ 1 := (fun x v => Host.reduce IntOp.andi x v reducesTo_S262144x17_S_d0_1 h_S_) main_v79 main_c_31
  let main_v81 : IVec S_ 1 := andi main_v77 main_v80
  main_v81

def fn_part3 {F : FTy → Type} [FloatOps F] (main_arg0 : IVec S262144x17 32) (main_arg12 : FVec F S128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg0 main_arg15 main_v63 main_v67

def fn_part2 {F : FTy → Type} [FloatOps F] (main_arg0 : IVec S262144x17 32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x1 .f32) (main_arg15 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg0 main_arg12 main_arg13 main_arg14 main_arg15 main_v48 main_v49 main_v50

def fn_part1 {F : FTy → Type} [FloatOps F] (main_arg0 : IVec S262144x17 32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg8 main_arg9 main_arg10 main_arg11 main_arg12 main_arg13 main_arg14 main_arg15 main_v33

def fn {F : FTy → Type} [FloatOps F] (main_arg0 : IVec S262144x17 32) (main_arg1 : FVec F S17x512x16 .f32) (main_arg2 : FVec F S272x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S128 .f32) (main_arg13 : FVec F S128 .f32) (main_arg14 : FVec F S128x1 .f32) (main_arg15 : FVec F S1 .f32) : IVec S_ 1 :=
  let main_v0 : FVec F S17x512x16 .f32 := Host.absf main_arg1
  let main_cst : FVec F S_ .f32 := constant S_ .f32 0x7F800000#32
  let main_v1 : FVec F S17x512x16 .f32 := broadcastInDim S17x512x16 ![] bcast_S_S17x512x16 main_cst
  let main_v2 : IVec S17x512x16 1 := cmpf .olt main_v0 main_v1
  let main_c : IVec S_ 1 := constantI S_ 1 1#1
  let main_v3 : IVec S_ 1 := (fun x v => Host.reduce IntOp.andi x v reducesTo_S17x512x16_S_d0_1_2 h_S_) main_v2 main_c
  let main_v4 : FVec F S272x256 .f32 := Host.absf main_arg2
  let main_cst_0 : FVec F S_ .f32 := constant S_ .f32 0x7F800000#32
  let main_v5 : FVec F S272x256 .f32 := broadcastInDim S272x256 ![] bcast_S_S272x256 main_cst_0
  let main_v6 : IVec S272x256 1 := cmpf .olt main_v4 main_v5
  let main_c_1 : IVec S_ 1 := constantI S_ 1 1#1
  let main_v7 : IVec S_ 1 := (fun x v => Host.reduce IntOp.andi x v reducesTo_S272x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_arg7 main_arg8 main_arg9 main_arg10 main_arg11 main_arg12 main_arg13 main_arg14 main_arg15 main_v13 main_v16
-- ==== Kernel.lean ====
abbrev S262144x17 : Shape := ⟨2, ![262144, 17]⟩
abbrev S17x512x16 : Shape := ⟨3, ![17, 512, 16]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S262144x256 : Shape := ⟨2, ![262144, 256]⟩
abbrev S2048x17 : Shape := ⟨2, ![2048, 17]⟩
abbrev S2048x256 : Shape := ⟨2, ![2048, 256]⟩
abbrev S2048x512 : Shape := ⟨2, ![2048, 512]⟩
abbrev S2048x1 : Shape := ⟨2, ![2048, 1]⟩
abbrev S1x512x16 : Shape := ⟨3, ![1, 512, 16]⟩
abbrev S512x16 : Shape := ⟨2, ![512, 16]⟩
abbrev S2048x16 : Shape := ⟨2, ![2048, 16]⟩
abbrev S2048x272 : Shape := ⟨2, ![2048, 272]⟩
abbrev S1x256 : Shape := ⟨2, ![1, 256]⟩
abbrev S_ : Shape := ⟨0, ![]⟩
abbrev S262144x128 : Shape := ⟨2, ![262144, 128]⟩
abbrev S2048x128 : Shape := ⟨2, ![2048, 128]⟩
abbrev S1x128 : Shape := ⟨2, ![1, 128]⟩
abbrev S262144x1 : Shape := ⟨2, ![262144, 1]⟩
abbrev S1x1 : Shape := ⟨2, ![1, 1]⟩

abbrev nBuf : Space → Nat
  | .hbm => 50
  | .vmem => 43
  | .smem => 0
  | _ => 0

abbrev bufTy : (tb : Table) → Fin (tcTables nBuf tb) → BufTy
  | .hbm, ⟨0, _⟩ => ⟨S262144x17, .i32⟩
  | .hbm, ⟨1, _⟩ => ⟨S17x512x16, .f32⟩
  | .hbm, ⟨2, _⟩ => ⟨S272x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S262144x256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S262144x256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S262144x128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S262144x1, .f32⟩
  | .local _ .vmem, ⟨0, _⟩ => ⟨S2048x17, .i32⟩
  | .local _ .vmem, ⟨1, _⟩ => ⟨S2048x17, .i32⟩
  | .local _ .vmem, ⟨2, _⟩ => ⟨S17x512x16, .f32⟩
  | .local _ .vmem, ⟨3, _⟩ => ⟨S272x256, .f32⟩
  | .local _ .vmem, ⟨4, _⟩ => ⟨S256, .f32⟩
  | .local _ .vmem, ⟨5, _⟩ => ⟨S2048x256, .f32⟩
  | .local _ .vmem, ⟨6, _⟩ => ⟨S2048x256, .f32⟩
  | .local _ .vmem, ⟨7, _⟩ => ⟨S256, .f32⟩
  | .local _ .vmem, ⟨8, _⟩ => ⟨S256, .f32⟩
  | .local _ .vmem, ⟨9, _⟩ => ⟨S2048x256, .f32⟩
  | .local _ .vmem, ⟨10, _⟩ => ⟨S2048x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256x256, .f32⟩
  | .local _ .vmem, ⟨16, _⟩ => ⟨S256, .f32⟩
  | .local _ .vmem, ⟨17, _⟩ => ⟨S2048x256, .f32⟩
  | .local _ .vmem, ⟨18, _⟩ => ⟨S2048x256, .f32⟩
  | .local _ .vmem, ⟨19, _⟩ => ⟨S256, .f32⟩
  | .local _ .vmem, ⟨20, _⟩ => ⟨S256, .f32⟩
  | .local _ .vmem, ⟨21, _⟩ => ⟨S2048x256, .f32⟩
  | .local _ .vmem, ⟨22, _⟩ => ⟨S2048x256, .f32⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S256, .f32⟩
  | .local _ .vmem, ⟨27, _⟩ => ⟨S256x128, .f32⟩
  | .local _ .vmem, ⟨28, _⟩ => ⟨S128, .f32⟩
  | .local _ .vmem, ⟨29, _⟩ => ⟨S2048x128, .f32⟩
  | .local _ .vmem, ⟨30, _⟩ => ⟨S2048x128, .f32⟩
  | .local _ .vmem, ⟨31, _⟩ => ⟨S128, .f32⟩
  | .local _ .vmem, ⟨32, _⟩ => ⟨S128, .f32⟩
  | .local _ .vmem, ⟨33, _⟩ => ⟨S2048x128, .f32⟩
  | .local _ .vmem, ⟨34, _⟩ => ⟨S2048x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128, .f32⟩
  | .local _ .vmem, ⟨39, _⟩ => ⟨S128x1, .f32⟩
  | .local _ .vmem, ⟨40, _⟩ => ⟨S1, .f32⟩
  | .local _ .vmem, ⟨41, _⟩ => ⟨S2048x1, .f32⟩
  | .local _ .vmem, ⟨42, _⟩ => ⟨S2048x1, .f32⟩
  | _, _ => ⟨S262144x17, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v14_2 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg9_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc2_sem8_0 : DmaSem sig := 31
abbrev cc2_sem9_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v187 : BitVec 1 := Scalar.cmpi .eq arg0 c0_i32
  let v188 : BitVec 32 := Scalar.extui v187
  let c0_i32_61 : BitVec 32 := 0#32
  let v189 : BitVec 1 := Scalar.cmpi .ne v188 c0_i32_61
  v189

def k0_cond2 (i : grid0.Coords) : BitVec 1 :=
  let arg0 : BitVec 32 := BitVec.ofNat 32 (i 0).val
  let c0_i32_62 : BitVec 32 := 0#32
  let v190 : BitVec 1 := Scalar.cmpi .ne arg0 c0_i32_62
  let v191 : BitVec 32 := Scalar.extui v190
  let c0_i32_63 : BitVec 32 := 0#32
  let v192 : BitVec 1 := Scalar.cmpi .ne v191 c0_i32_63
  v192

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x17 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S272x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![128], ![false]⟩

def k1_cond1 (i : grid1.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k1_cond2 (i : grid1.Coords) : BitVec 1 :=
  let arg0 : BitVec 32 := BitVec.ofNat 32 (i 0).val
  let c0_i32_15 : BitVec 32 := 0#32
  let v40 : BitVec 1 := Scalar.cmpi .ne arg0 c0_i32_15
  let v41 : BitVec 32 := Scalar.extui v40
  let c0_i32_16 : BitVec 32 := 0#32
  let v42 : BitVec 1 := Scalar.cmpi .ne v41 c0_i32_16
  v42

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![128], ![false]⟩

def k2_cond1 (i : grid2.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k2_cond2 (i : grid2.Coords) : BitVec 1 :=
  let arg0 : BitVec 32 := BitVec.ofNat 32 (i 0).val
  let c0_i32_15 : BitVec 32 := 0#32
  let v40 : BitVec 1 := Scalar.cmpi .ne arg0 c0_i32_15
  let v41 : BitVec 32 := Scalar.extui v40
  let c0_i32_16 : BitVec 32 := 0#32
  let v42 : BitVec 1 := Scalar.cmpi .ne v41 c0_i32_16
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S2048x17_S2048x17_0_0 : ∀ a, (![0, 0] : Fin 2 → Nat) a + S2048x17.size a ≤ S2048x17.size a
  h_S2048x17 : 0 < S2048x17.numel
  iota_S2048x512_d1_w32 : S2048x512.Iotas .tc 32 [1]
  slices_S2048x17_o0_0_S2048x1 : S2048x17.Slices ![0, 0] S2048x1
  broadcasts_S2048x1_S2048x512 : S2048x1.Broadcasts S2048x512
  natLt_1_32 : 1 < 32
  bitsLt_bf16_f32 : FTy.bits .bf16 < FTy.bits .f32
  inb_S17x512x16_S1x512x16_0_0_0 : ∀ a, (![0, 0, 0] : Fin 3 → Nat) a + S1x512x16.size a ≤ S17x512x16.size a
  h_S1x512x16 : 0 < S1x512x16.numel
  shapeCasts_S1x512x16_S512x16 : S1x512x16.ShapeCasts S512x16
  slices_S2048x17_o0_1_S2048x1 : S2048x17.Slices ![0, 1] S2048x1
  inb_S17x512x16_S1x512x16_1_0_0 : ∀ a, (![1, 0, 0] : Fin 3 → Nat) a + S1x512x16.size a ≤ S17x512x16.size a
  slices_S2048x17_o0_2_S2048x1 : S2048x17.Slices ![0, 2] S2048x1
  inb_S17x512x16_S1x512x16_2_0_0 : ∀ a, (![2, 0, 0] : Fin 3 → Nat) a + S1x512x16.size a ≤ S17x512x16.size a
  slices_S2048x17_o0_3_S2048x1 : S2048x17.Slices ![0, 3] S2048x1
  inb_S17x512x16_S1x512x16_3_0_0 : ∀ a, (![3, 0, 0] : Fin 3 → Nat) a + S1x512x16.size a ≤ S17x512x16.size a
  slices_S2048x17_o0_4_S2048x1 : S2048x17.Slices ![0, 4] S2048x1
  inb_S17x512x16_S1x512x16_4_0_0 : ∀ a, (![4, 0, 0] : Fin 3 → Nat) a + S1x512x16.size a ≤ S17x512x16.size a
  slices_S2048x17_o0_5_S2048x1 : S2048x17.Slices ![0, 5] S2048x1
  inb_S17x512x16_S1x512x16_5_0_0 : ∀ a, (![5, 0, 0] : Fin 3 → Nat) a + S1x512x16.size a ≤ S17x512x16.size a
  slices_S2048x17_o0_6_S2048x1 : S2048x17.Slices ![0, 6] S2048x1
  inb_S17x512x16_S1x512x16_6_0_0 : ∀ a, (![6, 0, 0] : Fin 3 → Nat) a + S1x512x16.size a ≤ S17x512x16.size a
  slices_S2048x17_o0_7_S2048x1 : S2048x17.Slices ![0, 7] S2048x1
  inb_S17x512x16_S1x512x16_7_0_0 : ∀ a, (![7, 0, 0] : Fin 3 → Nat) a + S1x512x16.size a ≤ S17x512x16.size a
  slices_S2048x17_o0_8_S2048x1 : S2048x17.Slices ![0, 8] S2048x1
  inb_S17x512x16_S1x512x16_8_0_0 : ∀ a, (![8, 0, 0] : Fin 3 → Nat) a + S1x512x16.size a ≤ S17x512x16.size a
  slices_S2048x17_o0_9_S2048x1 : S2048x17.Slices ![0, 9] S2048x1
  inb_S17x512x16_S1x512x16_9_0_0 : ∀ a, (![9, 0, 0] : Fin 3 → Nat) a + S1x512x16.size a ≤ S17x512x16.size a
  slices_S2048x17_o0_10_S2048x1 : S2048x17.Slices ![0, 10] S2048x1
  inb_S17x512x16_S1x512x16_10_0_0 : ∀ a, (![10, 0, 0] : Fin 3 → Nat) a + S1x512x16.size a ≤ S17x512x16.size a
  slices_S2048x17_o0_11_S2048x1 : S2048x17.Slices ![0, 11] S2048x1
  inb_S17x512x16_S1x512x16_11_0_0 : ∀ a, (![11, 0, 0] : Fin 3 → Nat) a + S1x512x16.size a ≤ S17x512x16.size a
  slices_S2048x17_o0_12_S2048x1 : S2048x17.Slices ![0, 12] S2048x1
  inb_S17x512x16_S1x512x16_12_0_0 : ∀ a, (![12, 0, 0] : Fin 3 → Nat) a + S1x512x16.size a ≤ S17x512x16.size a
  slices_S2048x17_o0_13_S2048x1 : S2048x17.Slices ![0, 13] S2048x1
  inb_S17x512x16_S1x512x16_13_0_0 : ∀ a, (![13, 0, 0] : Fin 3 → Nat) a + S1x512x16.size a ≤ S17x512x16.size a
  slices_S2048x17_o0_14_S2048x1 : S2048x17.Slices ![0, 14] S2048x1
  inb_S17x512x16_S1x512x16_14_0_0 : ∀ a, (![14, 0, 0] : Fin 3 → Nat) a + S1x512x16.size a ≤ S17x512x16.size a
  slices_S2048x17_o0_15_S2048x1 : S2048x17.Slices ![0, 15] S2048x1
  inb_S17x512x16_S1x512x16_15_0_0 : ∀ a, (![15, 0, 0] : Fin 3 → Nat) a + S1x512x16.size a ≤ S17x512x16.size a
  slices_S2048x17_o0_16_S2048x1 : S2048x17.Slices ![0, 16] S2048x1
  inb_S17x512x16_S1x512x16_16_0_0 : ∀ a, (![16, 0, 0] : Fin 3 → Nat) a + S1x512x16.size a ≤ S17x512x16.size a
  concatenates_S2048x16_S2048x16_S2048x16_S2048x16_S2048x16_S2048x16_S2048x16_S2048x16_S2048x16_S2048x16_S2048x16_S2048x16_S2048x16_S2048x16_S2048x16_S2048x16_S2048x16_S2048x272_d1 : Shape.Concatenates [S2048x16, S2048x16, S2048x16, S2048x16, S2048x16, S2048x16, S2048x16, S2048x16, S2048x16, S2048x16, S2048x16, S2048x16, S2048x16, S2048x16, S2048x16, S2048x16, S2048x16] S2048x272 1
  inb_S272x256_S272x256_0_0 : ∀ a, (![0, 0] : Fin 2 → Nat) a + S272x256.size a ≤ S272x256.size a
  h_S272x256 : 0 < S272x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S256 : S256.ShapeCasts S256
  bcast_S_S256 : S_.BroadcastsInDim S256 (![] : Fin 0 → Fin S256.rank)
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reduces_S2048x128_S128 : S2048x128.Reduces [0] S128
  shapeCasts_S128_S128 : S128.ShapeCasts S128
  bcast_S_S128 : S_.BroadcastsInDim S128 (![] : Fin 0 → Fin S128.rank)
  shapeCasts_S2048x128_S2048x128 : S2048x128.ShapeCasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x16_S2048x16_1_0_0_1_n_n_wf : DotDims.WF S2048x512 S512x16 S2048x16 [1] [0] [0] [1] [] []
  dot_S2048x272_S272x256_S2048x256_1_0_0_1_n_n_wf : DotDims.WF S2048x272 S272x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x17.size a ≤ S262144x17.size a
  hwx0_0 : ∀ i : grid0.Coords, EltTy.bits .i32 = 32 ∨ (Rect.block (s := S262144x17) S2048x17.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x512x16.size a ≤ S17x512x16.size a
  hwx0_1 : ∀ i : grid0.Coords, EltTy.bits .f32 = 32 ∨ (Rect.block (s := S17x512x16) S17x512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S272x256.size a ≤ S272x256.size a
  hwx0_2 : ∀ i : grid0.Coords, EltTy.bits .f32 = 32 ∨ (Rect.block (s := S272x256) S272x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S262144x256.size a
  hwx1_0 : ∀ i : grid1.Coords, EltTy.bits .f32 = 32 ∨ (Rect.block (s := S262144x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S262144x256.size a
  hwx1_7 : ∀ i : grid1.Coords, EltTy.bits .f32 = 32 ∨ (Rect.block (s := S262144x256) S2048x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S262144x256.size a
  hwx2_0 : ∀ i : grid2.Coords, EltTy.bits .f32 = 32 ∨ (Rect.block (s := S262144x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S262144x128.size a
  hwx2_7 : ∀ i : grid2.Coords, EltTy.bits .f32 = 32 ∨ (Rect.block (s := S262144x128) S2048x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S262144x128.size a
  hwx3_0 : ∀ i : grid3.Coords, EltTy.bits .f32 = 32 ∨ (Rect.block (s := S262144x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x1.size a ≤ S262144x1.size a
  hwx3_7 : ∀ i : grid3.Coords, EltTy.bits .f32 = 32 ∨ (Rect.block (s := S262144x1) S2048x1.size (cc3_transform_7 i) (hinb3_7 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x272_S272x256_S2048x256_1_0_0_1_n_n : DotDims S2048x272 S272x256 S2048x256 where
  lhsContracting := [1]
  rhsContracting := [0]
  lhsNonContracting := [0]
  rhsNonContracting := [1]
  lhsBatch := []
  rhsBatch := []
  wf := dot_S2048x272_S272x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S17x512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S272x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

abbrev win1_0 : Pipeline.Window sig grid1 :=
  Pipeline.Window.ofSpec (Memref.whole main_v0_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_0) S2048x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7_1) S256.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7_2) S256.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) && !(k1_cond2 i == 1#1) | 9 => fun i => !(k1_cond1 i == 1#1) && !(k1_cond2 i == 1#1) | ⟨_ + 10, h⟩ => absurd h (Nat.not_lt.2 (Nat.le_add_left _ _))

abbrev win2_0 : Pipeline.Window sig grid2 :=
  Pipeline.Window.ofSpec (Memref.whole main_v7_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14_0) S2048x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v14_1) S128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v14_2) S128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond1 i == 1#1) && !(k2_cond2 i == 1#1) | 9 => fun i => !(k2_cond1 i == 1#1) && !(k2_cond2 i == 1#1) | ⟨_ + 10, h⟩ => absurd h (Nat.not_lt.2 (Nat.le_add_left _ _))

abbrev win3_0 : Pipeline.Window sig grid3 :=
  Pipeline.Window.ofSpec (Memref.whole main_v14_0) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v21) S2048x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S262144x17 : Shape := ⟨2, ![262144, 17]⟩
abbrev S17x512x16 : Shape := ⟨3, ![17, 512, 16]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S17 : Shape := ⟨1, ![17]⟩
abbrev S_ : Shape := ⟨0, ![]⟩
abbrev S262144x17x1 : Shape := ⟨3, ![262144, 17, 1]⟩
abbrev S262144x17x2 : Shape := ⟨3, ![262144, 17, 2]⟩
abbrev S262144x17x16 : Shape := ⟨3, ![262144, 17, 16]⟩
abbrev S262144x272 : Shape := ⟨2, ![262144, 272]⟩
abbrev S262144x256 : Shape := ⟨2, ![262144, 256]⟩
abbrev S1x256 : Shape := ⟨2, ![1, 256]⟩
abbrev S262144x128 : Shape := ⟨2, ![262144, 128]⟩
abbrev S1x128 : Shape := ⟨2, ![1, 128]⟩
abbrev S262144x1 : Shape := ⟨2, ![262144, 1]⟩
abbrev S1x1 : Shape := ⟨2, ![1, 1]⟩

abbrev nBuf : Space → Nat
  | .hbm => 194
  | .vmem => 0
  | .smem => 0
  | _ => 0

abbrev hbmTy0_0 (i : Nat) : BufTy := match i % 128 with
  | 0 => ⟨S262144x17, .i32⟩
  | 1 => ⟨S17x512x16, .f32⟩
  | 2 => ⟨S272x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x128, .f32⟩
  | 11 => ⟨S128, .f32⟩
  | 12 => ⟨S128, .f32⟩
  | 13 => ⟨S128, .f32⟩
  | 14 => ⟨S128x1, .f32⟩
  | 15 => ⟨S1, .f32⟩
  | 16 => ⟨S17, .i32⟩
  | 17 => ⟨S_, .i32⟩
  | 18 => ⟨S17, .i32⟩
  | 19 => ⟨S17, .i1⟩
  | 20 => ⟨S_, .i32⟩
  | 21 => ⟨S17, .i32⟩
  | 22 => ⟨S17, .i32⟩
  | 23 => ⟨S17, .i32⟩
  | 24 => ⟨S_, .i32⟩
  | 25 => ⟨S262144x17, .i32⟩
  | 26 => ⟨S262144x17, .i1⟩
  | 27 => ⟨S_, .i32⟩
  | 28 => ⟨S262144x17, .i32⟩
  | 29 => ⟨S262144x17, .i32⟩
  | 30 => ⟨S262144x17, .i32⟩
  | 31 => ⟨S262144x17, .i32⟩
  | 32 => ⟨S262144x17x1, .i32⟩
  | 33 => ⟨S262144x17x1, .i32⟩
  | 34 => ⟨S262144x17x2, .i32⟩
  | 35 => ⟨S262144x17x16, .f32⟩
  | 36 => ⟨S262144x272, .f32⟩
  | 37 => ⟨S262144x256, .f32⟩
  | 38 => ⟨S1x256, .f32⟩
  | 39 => ⟨S262144x256, .f32⟩
  | 40 => ⟨S262144x256, .f32⟩
  | 41 => ⟨S_, .f32⟩
  | 42 => ⟨S262144x256, .f32⟩
  | 43 => ⟨S262144x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S262144x256, .f32⟩
  | 57 => ⟨S262144x256, .f32⟩
  | 58 => ⟨S262144x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S262144x256, .f32⟩
  | 74 => ⟨S262144x256, .f32⟩
  | 75 => ⟨S1x256, .f32⟩
  | 76 => ⟨S262144x256, .f32⟩
  | 77 => ⟨S262144x256, .f32⟩
  | 78 => ⟨S_, .f32⟩
  | 79 => ⟨S256, .f32⟩
  | 80 => ⟨S256, .f32⟩
  | 81 => ⟨S256, .f32⟩
  | 82 => ⟨S1x256, .f32⟩
  | 83 => ⟨S262144x256, .f32⟩
  | 84 => ⟨S262144x256, .f32⟩
  | 85 => ⟨S1x256, .f32⟩
  | 86 => ⟨S262144x256, .f32⟩
  | 87 => ⟨S262144x256, .f32⟩
  | 88 => ⟨S262144x256, .f32⟩
  | 89 => ⟨S1x256, .f32⟩
  | 90 => ⟨S262144x256, .f32⟩
  | 91 => ⟨S262144x256, .f32⟩
  | 92 => ⟨S_, .f32⟩
  | 93 => ⟨S262144x256, .f32⟩
  | 94 => ⟨S262144x256, .f32⟩
  | 95 => ⟨S_, .f32⟩
  | 96 => ⟨S256, .f32⟩
  | 97 => ⟨S_, .f32⟩
  | 98 => ⟨S256, .f32⟩
  | 99 => ⟨S256, .f32⟩
  | 100 => ⟨S_, .i32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S262144x256, .f32⟩
  | 108 => ⟨S262144x256, .f32⟩
  | 109 => ⟨S262144x256, .f32⟩
  | 110 => ⟨S_, .f32⟩
  | 111 => ⟨S_, .f32⟩
  | 112 => ⟨S_, .f32⟩
  | 113 => ⟨S_, .f32⟩
  | 114 => ⟨S256, .f32⟩
  | 115 => ⟨S256, .f32⟩
  | 116 => ⟨S256, .f32⟩
  | 117 => ⟨S_, .f32⟩
  | 118 => ⟨S_, .i1⟩
  | 119 => ⟨S_, .f32⟩
  | 120 => ⟨S_, .f32⟩
  | 121 => ⟨S256, .f32⟩
  | 122 => ⟨S256, .f32⟩
  | 123 => ⟨S1x256, .f32⟩
  | 124 => ⟨S262144x256, .f32⟩
  | 125 => ⟨S262144x256, .f32⟩
  | 126 => ⟨S1x256, .f32⟩
  | 127 => ⟨S262144x256, .f32⟩
  | _ => ⟨S262144x17, .i32⟩

abbrev hbmTy0_1 (i : Nat) : BufTy := match i % 128 with
  | 0 => ⟨S262144x256, .f32⟩
  | 1 => ⟨S_, .f32⟩
  | 2 => ⟨S256, .f32⟩
  | 3 => ⟨S256, .f32⟩
  | 4 => ⟨S256, .f32⟩
  | 5 => ⟨S1x256, .f32⟩
  | 6 => ⟨S262144x256, .f32⟩
  | 7 => ⟨S262144x256, .f32⟩
  | 8 => ⟨S1x256, .f32⟩
  | 9 => ⟨S262144x256, .f32⟩
  | 10 => ⟨S262144x256, .f32⟩
  | 11 => ⟨S262144x128, .f32⟩
  | 12 => ⟨S1x128, .f32⟩
  | 13 => ⟨S262144x128, .f32⟩
  | 14 => ⟨S262144x128, .f32⟩
  | 15 => ⟨S_, .f32⟩
  | 16 => ⟨S262144x128, .f32⟩
  | 17 => ⟨S262144x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S262144x128, .f32⟩
  | 31 => ⟨S262144x128, .f32⟩
  | 32 => ⟨S262144x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S262144x128, .f32⟩
  | 48 => ⟨S262144x128, .f32⟩
  | 49 => ⟨S1x128, .f32⟩
  | 50 => ⟨S262144x128, .f32⟩
  | 51 => ⟨S262144x128, .f32⟩
  | 52 => ⟨S_, .f32⟩
  | 53 => ⟨S128, .f32⟩
  | 54 => ⟨S128, .f32⟩
  | 55 => ⟨S128, .f32⟩
  | 56 => ⟨S1x128, .f32⟩
  | 57 => ⟨S262144x128, .f32⟩
  | 58 => ⟨S262144x128, .f32⟩
  | 59 => ⟨S1x128, .f32⟩
  | 60 => ⟨S262144x128, .f32⟩
  | 61 => ⟨S262144x128, .f32⟩
  | 62 => ⟨S262144x1, .f32⟩
  | 63 => ⟨S1x1, .f32⟩
  | 64 => ⟨S262144x1, .f32⟩
  | 65 => ⟨S262144x1, .f32⟩
  | _ => ⟨S262144x17, .i32⟩

abbrev hbmTy (i : Nat) : BufTy := match i / 128 with
  | 0 => hbmTy0_0 i
  | 1 => hbmTy0_1 i
  | _ => ⟨S262144x17, .i32⟩

abbrev bufTy : (tb : Table) → Fin (tcTables nBuf tb) → BufTy
  | .hbm, ⟨i, _⟩ => hbmTy i
  | _, _ => ⟨S262144x17, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_v6 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call0_cst : Ref sig .tc := ⟨.hbm, 41, rfl⟩
abbrev main_call0_v0 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_cst_2 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_cst_3 : Ref sig .tc := ⟨.hbm, 66, rfl⟩
abbrev main_call1_v12 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_call2_cst : Ref sig .tc := ⟨.hbm, 92, rfl⟩
abbrev main_call2_v0 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_c_8 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_cst_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_cst_1 : Ref sig .tc := ⟨.hbm, 111, rfl⟩
abbrev main_call3_v8 : Ref sig .tc := ⟨.hbm, 112, rfl⟩
abbrev main_call3_cst_2 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_cst_3 : Ref sig .tc := ⟨.hbm, 117, rfl⟩
abbrev main_call3_v12 : Ref sig .tc := ⟨.hbm, 118, rfl⟩
abbrev main_call3_cst_4 : Ref sig .tc := ⟨.hbm, 119, rfl⟩
abbrev main_call3_call0_v0 : Ref sig .tc := ⟨.hbm, 120, rfl⟩
abbrev main_call3_call0_v1 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_9 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_call4_cst : Ref sig .tc := ⟨.hbm, 143, rfl⟩
abbrev main_call4_v0 : Ref sig .tc := ⟨.hbm, 144, rfl⟩
abbrev main_v69 : Ref sig .tc := ⟨.hbm, 145, rfl⟩
abbrev main_cst_10 : Ref sig .tc := ⟨.hbm, 146, rfl⟩
abbrev main_v70 : Ref sig .tc := ⟨.hbm, 147, rfl⟩
abbrev main_cst_11 : Ref sig .tc := ⟨.hbm, 148, rfl⟩
abbrev main_v71 : Ref sig .tc := ⟨.hbm, 149, rfl⟩
abbrev main_v72 : Ref sig .tc := ⟨.hbm, 150, rfl⟩
abbrev main_c_12 : Ref sig .tc := ⟨.hbm, 151, rfl⟩
abbrev main_call5_cst : Ref sig .tc := ⟨.hbm, 152, rfl⟩
abbrev main_call5_v0 : Ref sig .tc := ⟨.hbm, 153, rfl⟩
abbrev main_call5_v1 : Ref sig .tc := ⟨.hbm, 154, rfl⟩
abbrev main_call5_cst_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_v6 : Ref sig .tc := ⟨.hbm, 160, rfl⟩
abbrev main_call5_v7 : Ref sig .tc := ⟨.hbm, 161, rfl⟩
abbrev main_call5_cst_1 : Ref sig .tc := ⟨.hbm, 162, rfl⟩
abbrev main_call5_v8 : Ref sig .tc := ⟨.hbm, 163, rfl⟩
abbrev main_call5_cst_2 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_cst_3 : Ref sig .tc := ⟨.hbm, 168, rfl⟩
abbrev main_call5_v12 : Ref sig .tc := ⟨.hbm, 169, rfl⟩
abbrev main_call5_cst_4 : Ref sig .tc := ⟨.hbm, 170, rfl⟩
abbrev main_call5_call0_v0 : Ref sig .tc := ⟨.hbm, 171, rfl⟩
abbrev main_call5_call0_v1 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_cst_13 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩

abbrev nD : Nat := 1
abbrev τ : Topo := Topo.v7x

variable {F : FTy → Type} [FloatOps F]

class Facts₀ : Prop where
  bcast_S_S17 : S_.BroadcastsInDim S17 (![] : Fin 0 → Fin S17.rank)
  bcast_S_S262144x17 : S_.BroadcastsInDim S262144x17 (![] : Fin 0 → Fin S262144x17.rank)
  bcast_S17_S262144x17_1 : S17.BroadcastsInDim S262144x17 (![1] : Fin 1 → Fin S262144x17.rank)
  bcast_S262144x17_S262144x17x1_0_1 : S262144x17.BroadcastsInDim S262144x17x1 (![0, 1] : Fin 2 → Fin S262144x17x1.rank)
  concatenates_S262144x17x1_S262144x17x1_S262144x17x2_d2 : Shape.Concatenates [S262144x17x1, S262144x17x1] S262144x17x2 2
  shapeCasts_S262144x17x16_S262144x272 : S262144x17x16.ShapeCasts S262144x272
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  reducesTo_S262144x256_S256_d0 : S262144x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  reducesTo_S262144x128_S128_d0 : S262144x128.ReducesTo [0] S128
  bcast_S_S128 : S_.BroadcastsInDim S128 (![] : Fin 0 → Fin S128.rank)
  bcast_S_S1x128 : S_.BroadcastsInDim S1x128 (![] : Fin 0 → Fin S1x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  gather_S17x512x16_S262144x17x2_S262144x17x16_2_01_n_n_01_2_1116_wf : GatherDims.WF S17x512x16 S262144x17x2 S262144x17x16 [2] [0, 1] [] [0, 1] [] 2 ![1, 1, 16]
  dot_S262144x272_S272x256_S262144x256_1_0_0_1_n_n_wf : DotDims.WF S262144x272 S272x256 S262144x256 [1] [0] [0] [1] [] []
  dot_S262144x256_S256x256_S262144x256_1_0_0_1_n_n_wf : DotDims.WF S262144x256 S256x256 S262144x256 [1] [0] [0] [1] [] []
  dot_S262144x256_S256x128_S262144x128_1_0_0_1_n_n_wf : DotDims.WF S262144x256 S256x128 S262144x128 [1] [0] [0] [1] [] []
  dot_S262144x128_S128x1_S262144x1_1_0_0_1_n_n_wf : DotDims.WF S262144x128 S128x1 S262144x1 [1] [0] [0] [1] [] []

variable [Facts₀]

def gather_S17x512x16_S262144x17x2_S262144x17x16_2_01_n_n_01_2_1116 : GatherDims S17x512x16 S262144x17x2 S262144x17x16 where
  offsetDims := [2]
  collapsedSliceDims := [0, 1]
  operandBatchingDims := []
  startIndicesBatchingDims := []
  startIndexMap := [0, 1]
  indexVectorDim := 2
  sliceSizes := ![1, 1, 16]
  wf := gather_S17x512x16_S262144x17x2_S262144x17x16_2_01_n_n_01_2_1116_wf
def dot_S262144x272_S272x256_S262144x256_1_0_0_1_n_n : DotDims S262144x272 S272x256 S262144x256 where
  lhsContracting := [1]
  rhsContracting := [0]
  lhsNonContracting := [0]
  rhsNonContracting := [1]
  lhsBatch := []
  rhsBatch := []
  wf := dot_S262144x272_S272x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.K.EmbDef.lean ====
import proofs.«426721_j37477884625195_1_alg».proof.Proof.Gen.Kernel.Skeleton

noncomputable section

namespace Cert.Kernel.Hand

open Cert.Kernel Cert.Kernel.Gen
open Idealize.ShloMosaic Idealize.SL.Sem

variable {F : FTy → Type} [FloatOps F]

/-- The block of looked-up features: for each of the 17 tables, the rows' one-hot indicator times the table, side by side. -/
def embBlk (v0 : Vec F S2048x17 .i32) (tb : Fin 17 → Vec F S1x512x16 .f32) : FVec F S2048x272 .f32 :=
  have v1 : IVec S2048x512 32 := iota .tc S2048x512 32 [1] iota_S2048x512_d1_w32
  concatenate S2048x272 1
    [⟨S2048x16, k0_pay6 v0 (tb 0)⟩, ⟨S2048x16, k0_pay7 v0 (tb 1)⟩, ⟨S2048x16, k0_pay8 v0 (tb 2)⟩,
     ⟨S2048x16, k0_pay11 (k0_pay9 v0) (k0_pay10 (tb 3)) (constant S2048x16 .f32 0x00000000#32)⟩,
     ⟨S2048x16, k0_pay12 v0 v1 (tb 4)⟩, ⟨S2048x16, k0_pay13 v0 v1 (tb 5)⟩, ⟨S2048x16, k0_pay14 v0 v1 (tb 6)⟩,
     ⟨S2048x16, k0_pay15 v0 v1 (tb 7)⟩, ⟨S2048x16, k0_pay17 (k0_pay16 v0 v1) (tb 8)⟩,
     ⟨S2048x16, k0_pay18 v0 v1 (tb 9)⟩, ⟨S2048x16, k0_pay19 v0 v1 (tb 10)⟩, ⟨S2048x16, k0_pay20 v0 v1 (tb 11)⟩,
     ⟨S2048x16, k0_pay22 (k0_pay21 v0 v1) (tb 12)⟩, ⟨S2048x16, k0_pay23 v0 v1 (tb 13)⟩,
     ⟨S2048x16, k0_pay24 v0 v1 (tb 14)⟩, ⟨S2048x16, k0_pay25 v0 v1 (tb 15)⟩,
     ⟨S2048x16, k0_pay1 (k0_pay26 v0 v1) (k0_pay27 (tb 16))⟩]
    concatenates_S2048x16_S2048x16_S2048x16_S2048x16_S2048x16_S2048x16_S2048x16_S2048x16_S2048x16_S2048x16_S2048x16_S2048x16_S2048x16_S2048x16_S2048x16_S2048x16_S2048x16_S2048x272_d1

end Cert.Kernel.Hand

end
-- ==== Proof.K.R0.lean ====
import proofs.«426721_j37477884625195_1_alg».proof.Proof.Gen.Kernel.Launch
import proofs.«426721_j37477884625195_1_alg».proof.Proof.Gen.Kernel.Skeleton
import proofs.«426721_j37477884625195_1_alg».proof.Proof.Gen.Kernel.Points
import proofs.«426721_j37477884625195_1_alg».proof.Proof.K.EmbDef
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rI : Rect S2048x17 := Rect.unit (s := S2048x17) ![0, 0] S2048x17.size inb_S2048x17_S2048x17_0_0
abbrev rW : Rect S272x256 := Rect.unit (s := S272x256) ![0, 0] S272x256.size inb_S272x256_S272x256_0_0
abbrev rL : Rect S256 := Rect.unit (s := S256) ![0] S256.size inb_S256_S256_0
abbrev rO : Rect S2048x256 := Rect.unit (s := S2048x256) ![0, 0] S2048x256.size inb_S2048x256_S2048x256_0_0

theorem inbT (j : Fin 17) : ∀ a, (![j.val, 0, 0] : Fin 3 → Nat) a + S1x512x16.size a ≤ S17x512x16.size a := by
  intro a
  have hj := j.isLt
  fin_cases a
  · show j.val + 1 ≤ 17; omega
  · show 0 + 512 ≤ 512; omega
  · show 0 + 16 ≤ 16; omega

abbrev rT (j : Fin 17) : Rect S17x512x16 := Rect.unit (s := S17x512x16) ![j.val, 0, 0] S1x512x16.size (inbT j)

def tabs (x1 : Vec F S17x512x16 .f32) : Fin 17 → Vec F S1x512x16 .f32 := fun j => View.ld x1 (rT j)

section
variable (x0 : Vec F S2048x17 .i32) (x1 : Vec F S17x512x16 .f32) (x2 : Vec F S272x256 .f32) (x3 : Vec F S256 .f32)

def h0blk : FVec F S2048x256 .f32 :=
  k0_pay2 (embBlk (View.ld x0 rI) (tabs x1)) (View.ld x2 rW) (View.ld x3 rL)

def sumblk : FVec F S256 .f32 :=
  multiReduction .add [0] S256 (h0blk x0 x1 x2 x3) 0x00000000#32 reduces_S2048x256_S256 (.inl rfl) rfl

def sqblk : FVec F S256 .f32 := k0_pay3 (h0blk x0 x1 x2 x3)

def out0_4 : Vec F S2048x256 .f32 :=
  View.canon [⟨rO, h0blk x0 x1 x2 x3⟩]

def out0_5_A : Vec F S256 .f32 :=
  View.canon [⟨rL, sumblk x0 x1 x2 x3⟩]

def out0_5_B (xo : Vec F S256 .f32) : Vec F S256 .f32 :=
  View.canon [⟨rL, k0_pay4 (sumblk x0 x1 x2 x3) (View.ld xo rL)⟩]

def out0_6_A : Vec F S256 .f32 :=
  View.canon [⟨rL, sqblk x0 x1 x2 x3⟩]

def out0_6_B (xo : Vec F S256 .f32) : Vec F S256 .f32 :=
  View.canon [⟨rL, k0_pay5 (sqblk x0 x1 x2 x3) (View.ld xo rL)⟩]

/-- One store through the whole-shape rectangle at zero offsets covers every index. -/
theorem cover0 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond0 : ∀ t : Fin grid0.N, t.val = 0 ∧ k0_cond1 (grid0.coords t) = 1#1 ∧ ¬k0_cond2 (grid0.coords t) = 1#1
    ∨ ¬t.val = 0 ∧ ¬k0_cond1 (grid0.coords t) = 1#1 ∧ k0_cond2 (grid0.coords t) = 1#1 := by decide +kernel

/-- One run of the body serves both kinds of point, `z` saying whether it is the first: a later point adds its sums to what the accumulators held. -/
theorem sound_kernel0 (c : Dev nD) (E : Set ℕ) (i : grid0.Coords) (arg1 : Memref sig .tc .vmem S2048x17 .i32) (harg1 : arg1.IsWhole) (arg2 : Memref sig .tc .vmem S17x512x16 .f32) (harg2 : arg2.IsWhole) (arg3 : Memref sig .tc .vmem S272x256 .f32) (harg3 : arg3.IsWhole) (arg4 : Memref sig .tc .vmem S256 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole)
    (z : Prop) [Decidable z]
    (h : z ∧ k0_cond1 i = 1#1 ∧ ¬k0_cond2 i = 1#1 ∨ ¬z ∧ ¬k0_cond1 i = 1#1 ∧ k0_cond2 i = 1#1) (xo5 xo6 : Vec F S256 .f32) (K : PUnit → sProp 𝕄) :
    iprop((iprop(owns (c : Thread nD τ) arg5 fullShare (out0_4 x0 x1 x2 x3) ∗ owns (c : Thread nD τ) arg6 fullShare (if z then out0_5_A x0 x1 x2 x3 else out0_5_B x0 x1 x2 x3 xo5)
            ∗ owns (c : Thread nD τ) arg7 fullShare (if z then out0_6_A x0 x1 x2 x3 else out0_6_B x0 x1 x2 x3 xo6)
            ∗ owns (c : Thread nD τ) arg1 fullShare x0 ∗ owns (c : Thread nD τ) arg2 fullShare x1 ∗ owns (c : Thread nD τ) arg3 fullShare x2 ∗ owns (c : Thread nD τ) arg4 fullShare x3) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6)
      ⊢ wp frame (wpE (defs₀ (F := F)) Variants.none c none) E (cc0__layer0_kernel i arg1 harg1 arg2 harg2 arg3 harg3 arg4 harg4 arg5 harg5 arg6 harg6 arg7 harg7) K := by
  rcases h with ⟨hz, hc1, hc2⟩ | ⟨hz, hc1, hc2⟩ <;> simp only [hz, ↓reduceIte] <;>
  · simp only [cc0__layer0_kernel_eq_skeleton]; unfold cc0__layer0_kernel_skel
    simp only [k0_part1_eq_skeleton, k0_part2_eq_skeleton, k0_part3_eq_skeleton, k0_part4_eq_skeleton]
    unfold owns
    iintro ⟨Hk, ⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩⟩
    subst hf0 hf1 hf2 hf3 hf5 hf6
    sl_exec (disch := first | exact hc1 | exact hc2)
    sl_step
    iapply Hk
    isplitl [H4]; iexists _; isplitr; swap; iexact H4; rotate_left
    isplitl [H5]; iexists _; isplitr; swap; iexact H5; rotate_left
    isplitl [H6]; iexists _; isplitr; swap; iexact H6; rotate_left
    sl_close
    all_goals ipureintro; exact View.read_writes_eq_canon _ _ _ (cover0 (by decide) _ _)

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0_5 (c : Dev nD) : (n : ℕ) → n < cfg0.N → Vec F S256 .f32
  | 0, hn => out0_5_A (iblk0 V c 0 ⟨0, hn⟩) (iblk0 V c 1 ⟨0, hn⟩) (iblk0 V c 2 ⟨0, hn⟩) (iblk0 V c 3 ⟨0, hn⟩)
  | n + 1, hn => out0_5_B (iblk0 V c 0 ⟨n + 1, hn⟩) (iblk0 V c 1 ⟨n + 1, hn⟩) (iblk0 V c 2 ⟨n + 1, hn⟩) (iblk0 V c 3 ⟨n + 1, hn⟩) (acc0_5 c n (Nat.lt_of_succ_lt hn))

def acc0_6 (c : Dev nD) : (n : ℕ) → n < cfg0.N → Vec F S256 .f32
  | 0, hn => out0_6_A (iblk0 V c 0 ⟨0, hn⟩) (iblk0 V c 1 ⟨0, hn⟩) (iblk0 V c 2 ⟨0, hn⟩) (iblk0 V c 3 ⟨0, hn⟩)
  | n + 1, hn => out0_6_B (iblk0 V c 0 ⟨n + 1, hn⟩) (iblk0 V c 1 ⟨n + 1, hn⟩) (iblk0 V c 2 ⟨n + 1, hn⟩) (iblk0 V c 3 ⟨n + 1, hn⟩) (acc0_6 c n (Nat.lt_of_succ_lt hn))

def o0_4 (c : Dev nD) (t : Fin cfg0.N) : Vec F S2048x256 .f32 :=
  out0_4 (iblk0 V c 0 t) (iblk0 V c 1 t) (iblk0 V c 2 t) (iblk0 V c 3 t)

def o0_5 (c : Dev nD) (t : Fin cfg0.N) : Vec F S256 .f32 :=
  acc0_5 V c t.val t.isLt

def o0_6 (c : Dev nD) (t : Fin cfg0.N) : Vec F S256 .f32 :=
  acc0_6 V c t.val t.isLt

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
    | ⟨6, _⟩ => o0_6 V c t
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem after0_6 (c : Dev nD) (t : Fin cfg0.N) : (dat0 V c).after 6 t = o0_6 V c t := by dsimp only [dat0]

/-- What the body reads at a point: each input's block of its array, -/
theorem before0_in (c : Dev nD) (t : Fin cfg0.N) : (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) := by
  refine ⟨?_, ?_, ?_, ?_⟩ <;>
    exact fun d => ((dat0 V c).before_in_eq_fetched _ rfl (fun _ => rfl) (fun _ _ _ => rfl) (fun _ => rfl) t d).trans rfl

theorem live0 : ∀ i : grid0.Coords, idle0 5 i = false ∧ idle0 6 i = false := by decide +kernel

/-- and, after the first point, each accumulator as the point before left it. -/
theorem before0_acc (c : Dev nD) (w : Fin cfg0.W) (hw : w = 5 ∨ w = 6) (t : Fin cfg0.N) (h0 : t.val ≠ 0) (d) :
    (dat0 V c).before w t d = (dat0 V c).after w ⟨t.val - 1, Nat.lt_of_le_of_lt (Nat.sub_le _ _) t.isLt⟩ := by
  have hN : t.val < 128 := lt_of_lt_of_eq t.isLt (show cfg0.N = 128 from N_0)
  rcases hw with rfl | rfl <;>
    exact Dat.before_out_kept _ _ rfl t h0 (Bool.eq_false_iff.mpr fun h => by
      first | have := (flush0_5 _).mp h | have := (flush0_6 _).mp h
      dsimp only at this; omega) (fun i => by first | exact (live0 i).1 | exact (live0 i).2) (fun _ _ => rfl) d

/-- What each accumulator holds after the body, by kind of point. -/
theorem acc0_eq (c : Dev nD) (t : Fin cfg0.N) (d5 d6) :
    (dat0 V c).after 5 t = (if t.val = 0 then out0_5_A (iblk0 V c 0 t) (iblk0 V c 1 t) (iblk0 V c 2 t) (iblk0 V c 3 t) else out0_5_B (iblk0 V c 0 t) (iblk0 V c 1 t) (iblk0 V c 2 t) (iblk0 V c 3 t) ((dat0 V c).before 5 t d5))
    ∧ (dat0 V c).after 6 t = (if t.val = 0 then out0_6_A (iblk0 V c 0 t) (iblk0 V c 1 t) (iblk0 V c 2 t) (iblk0 V c 3 t) else out0_6_B (iblk0 V c 0 t) (iblk0 V c 1 t) (iblk0 V c 2 t) (iblk0 V c 3 t) ((dat0 V c).before 6 t d6)) := by
  obtain ⟨_ | n, hn⟩ := t
  · exact ⟨rfl, rfl⟩
  · have h0 : (⟨n + 1, hn⟩ : Fin cfg0.N).val ≠ 0 := Nat.succ_ne_zero n
    rw [if_neg h0, if_neg h0, before0_acc V c 5 (.inl rfl) _ h0, before0_acc V c 6 (.inr rfl) _ h0]
    dsimp only [dat0, o0_5, o0_6]
    exact ⟨rfl, rfl⟩

/-- The body meets its obligation at every point. -/
theorem body_obligation0 (c : Dev nD) : BodyObligation (dat0 (F := F) V c) (defs₀ (F := F)) Variants.none () Set.univ := fun t => by
  obtain ⟨b0, b1, b2, b3⟩ := before0_in V c t
  rw [bigSep_W0, bigSep_W0]
  dsimp only
  simp only [b0, b1, b2, b3, (live0 _).1, (live0 _).2]
  iintro ⟨HΦ, Ho, ⟨%d0, H0⟩, ⟨%d1, H1⟩, ⟨%d2, H2⟩, ⟨%d3, H3⟩, ⟨%d4, H4⟩, ⟨%d5, H5⟩, ⟨%d6, H6⟩⟩
  rewrite [(acc0_eq V c t d5 d6).1, (acc0_eq V c t d5 d6).2, show (dat0 V c).owesAt () t.succ = (dat0 V c).owesAt () t.castSucc from rfl]
  dsimp only [dat0, o0_4]
  iapply (sound_kernel0 (iblk0 V c 0 t) (iblk0 V c 1 t) (iblk0 V c 2 t) (iblk0 V c 3 t) c Set.univ (grid0.coords t) _ _ _ _ _ _ _ _ _ _ _ _ _ _ (t.val = 0) (hcond0 t) _ _ _)
  isplitl [HΦ Ho]
  · iintro ⟨H4, H5, H6, H0, H1, H2, H3⟩
    isplitl [HΦ]; · iexact HΦ
    isplitl [Ho]; · iexact Ho
    sl_close
  · sl_close

end Cert.Kernel.Hand

end
-- ==== Proof.K.R1.lean ====
import proofs.«426721_j37477884625195_1_alg».proof.Proof.Gen.Kernel.Launch
import proofs.«426721_j37477884625195_1_alg».proof.Proof.Gen.Kernel.Skeleton
import proofs.«426721_j37477884625195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2048x256 := Rect.unit (s := S2048x256) ![0, 0] S2048x256.size inb_S2048x256_S2048x256_0_0
abbrev r1_b : Rect S256 := Rect.unit (s := S256) ![0] S256.size inb_S256_S256_0
abbrev r1_c : Rect S256x256 := Rect.unit (s := S256x256) ![0, 0] S256x256.size inb_S256x256_S256x256_0_0

section
variable (x0 : Vec F S2048x256 .f32) (x1 x2 x3 x4 : Vec F S256 .f32) (x5 : Vec F S256x256 .f32) (x6 : Vec F S256 .f32)

def y1 : Vec F S2048x256 .f32 := k1_pay3 (View.ld x0 r1_a) (View.ld x2 r1_b) (View.ld x3 r1_b) (View.ld x1 r1_b) (View.ld x4 r1_b) (View.ld x5 r1_c) (View.ld x6 r1_b)
def s1 : Vec F S256 .f32 := k1_pay4 (View.ld x0 r1_a) (View.ld x2 r1_b) (View.ld x3 r1_b) (View.ld x1 r1_b) (View.ld x4 r1_b) (View.ld x5 r1_c) (View.ld x6 r1_b)
def q1 : Vec F S256 .f32 := k1_pay5 (View.ld x0 r1_a) (View.ld x2 r1_b) (View.ld x3 r1_b) (View.ld x1 r1_b) (View.ld x4 r1_b) (View.ld x5 r1_c) (View.ld x6 r1_b)
def out1_7 : Vec F S2048x256 .f32 := View.canon [⟨r1_a, y1 x0 x1 x2 x3 x4 x5 x6⟩]
def out1_8_A : Vec F S256 .f32 := View.canon [⟨r1_b, s1 x0 x1 x2 x3 x4 x5 x6⟩]
def out1_8_B (xo : Vec F S256 .f32) : Vec F S256 .f32 := View.canon [⟨r1_b, k1_pay1 (s1 x0 x1 x2 x3 x4 x5 x6) (View.ld xo r1_b)⟩]
def out1_9_A : Vec F S256 .f32 := View.canon [⟨r1_b, q1 x0 x1 x2 x3 x4 x5 x6⟩]
def out1_9_B (xo : Vec F S256 .f32) : Vec F S256 .f32 := View.canon [⟨r1_b, k1_pay2 (q1 x0 x1 x2 x3 x4 x5 x6) (View.ld xo r1_b)⟩]

def o1_7 (c : Dev nD) (t : Fin cfg1.N) : Vec F S2048x256 .f32 :=
  out1_7 (iblk1 V c 0 t) (iblk1 V c 1 t) (iblk1 V c 2 t) (iblk1 V c 3 t) (iblk1 V c 4 t) (iblk1 V c 5 t) (iblk1 V c 6 t)

def acc1_8 (c : Dev nD) : (n : ℕ) → n < cfg1.N → Vec F S256 .f32
  | 0, hn => out1_8_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn => out1_8_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (acc1_8 c n (Nat.lt_of_succ_lt hn))

def acc1_9 (c : Dev nD) : (n : ℕ) → n < cfg1.N → Vec F S256 .f32
  | 0, hn => out1_9_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn => out1_9_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (acc1_9 c n (Nat.lt_of_succ_lt hn))

def o1_8 (c : Dev nD) (t : Fin cfg1.N) : Vec F S256 .f32 := acc1_8 V c t.val t.isLt

def o1_9 (c : Dev nD) (t : Fin cfg1.N) : Vec F S256 .f32 := acc1_9 V c t.val t.isLt

/-- One store through the whole-shape rectangle at zero offsets covers every index. -/
theorem cover1 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond1 : ∀ t : Fin grid1.N, t.val = 0 ∧ k1_cond1 (grid1.coords t) = 1#1 ∧ ¬k1_cond2 (grid1.coords t) = 1#1
    ∨ ¬t.val = 0 ∧ ¬k1_cond1 (grid1.coords t) = 1#1 ∧ k1_cond2 (grid1.coords t) = 1#1 := by decide +kernel

/-- One run of the body serves both kinds of point, `z` saying whether it is the first: a later point adds its sums to what the accumulators held. -/
theorem sound_kernel1 (c : Dev nD) (E : Set ℕ) (i : grid1.Coords) (arg1 : Memref sig .tc .vmem S2048x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S256 .f32) (harg9 : arg9.IsWhole) (arg10 : Memref sig .tc .vmem S256 .f32) (harg10 : arg10.IsWhole)
    (z : Prop) [Decidable z]
    (h : z ∧ k1_cond1 i = 1#1 ∧ ¬k1_cond2 i = 1#1 ∨ ¬z ∧ ¬k1_cond1 i = 1#1 ∧ k1_cond2 i = 1#1) (xo8 xo9 : Vec F S256 .f32) (K : PUnit → sProp 𝕄) :
    iprop((iprop(owns (c : Thread nD τ) arg8 fullShare (out1_7 x0 x1 x2 x3 x4 x5 x6) ∗ owns (c : Thread nD τ) arg9 fullShare (if z then out1_8_A x0 x1 x2 x3 x4 x5 x6 else out1_8_B x0 x1 x2 x3 x4 x5 x6 xo8)
            ∗ owns (c : Thread nD τ) arg10 fullShare (if z then out1_9_A x0 x1 x2 x3 x4 x5 x6 else out1_9_B x0 x1 x2 x3 x4 x5 x6 xo9)
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9)
      ⊢ wp frame (wpE (defs₀ (F := F)) Variants.none c none) E (cc1__bn_relu_kernel i arg1 harg1 arg2 harg2 arg3 harg3 arg4 harg4 arg5 harg5 arg6 harg6 arg7 harg7 arg8 harg8 arg9 harg9 arg10 harg10) K := by
  rcases h with ⟨hz, hc1, hc2⟩ | ⟨hz, hc1, hc2⟩ <;> simp only [hz, ↓reduceIte] <;>
  · simp only [cc1__bn_relu_kernel_eq_skeleton]; unfold cc1__bn_relu_kernel_skel
    simp only [k1_part1_eq_skeleton]
    unfold owns
    iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩⟩
    subst hf0 hf1 hf2 hf3 hf4 hf5 hf6 hf8 hf9
    sl_exec (disch := first | exact hc1 | exact hc2)
    sl_step
    iapply Hk
    isplitl [H7]; iexists _; isplitr; swap; iexact H7; rotate_left
    isplitl [H8]; iexists _; isplitr; swap; iexact H8; rotate_left
    isplitl [H9]; iexists _; isplitr; swap; iexact H9; rotate_left
    sl_close
    all_goals ipureintro; exact View.read_writes_eq_canon _ _ _ (cover1 (by decide) _ _)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => o1_7 V c t
    | ⟨8, _⟩ => o1_8 V c t
    | ⟨9, _⟩ => o1_9 V c t
  Φ _ := Pipeline.ΦA spec1 c
  q _ := fullShare
  owed _ := 0

theorem A_eq1 (c : Dev nD) (w : Fin cfg1.W) : (dat1 V c).A w = V c (Pipeline.arrRef spec1 w) := rfl

/-- What the body reads at a point: each input's block of its array, -/
theorem before1_in (c : Dev nD) (t : Fin cfg1.N) : (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem live1 : ∀ i : grid1.Coords, idle1 8 i = false ∧ idle1 9 i = false := by decide +kernel

/-- and, after the first point, each accumulator as the point before left it. -/
theorem before1_acc (c : Dev nD) (w : Fin cfg1.W) (hw : w = 8 ∨ w = 9) (t : Fin cfg1.N) (h0 : t.val ≠ 0) (d) :
    (dat1 V c).before w t d = (dat1 V c).after w ⟨t.val - 1, Nat.lt_of_le_of_lt (Nat.sub_le _ _) t.isLt⟩ := by
  have hN : t.val < 128 := lt_of_lt_of_eq t.isLt (show cfg1.N = 128 from N_1)
  rcases hw with rfl | rfl <;>
    exact Dat.before_out_kept _ _ rfl t h0 (Bool.eq_false_iff.mpr fun h => by
      first | have := (flush1_8 _).mp h | have := (flush1_9 _).mp h
      dsimp only at this; omega) (fun i => by first | exact (live1 i).1 | exact (live1 i).2) (fun _ _ => rfl) d

/-- What each accumulator holds after the body, by kind of point. -/
theorem acc1_eq (c : Dev nD) (t : Fin cfg1.N) (d8 d9) :
    (dat1 V c).after 8 t = (if t.val = 0 then out1_8_A (iblk1 V c 0 t) (iblk1 V c 1 t) (iblk1 V c 2 t) (iblk1 V c 3 t) (iblk1 V c 4 t) (iblk1 V c 5 t) (iblk1 V c 6 t) else out1_8_B (iblk1 V c 0 t) (iblk1 V c 1 t) (iblk1 V c 2 t) (iblk1 V c 3 t) (iblk1 V c 4 t) (iblk1 V c 5 t) (iblk1 V c 6 t) ((dat1 V c).before 8 t d8))
    ∧ (dat1 V c).after 9 t = (if t.val = 0 then out1_9_A (iblk1 V c 0 t) (iblk1 V c 1 t) (iblk1 V c 2 t) (iblk1 V c 3 t) (iblk1 V c 4 t) (iblk1 V c 5 t) (iblk1 V c 6 t) else out1_9_B (iblk1 V c 0 t) (iblk1 V c 1 t) (iblk1 V c 2 t) (iblk1 V c 3 t) (iblk1 V c 4 t) (iblk1 V c 5 t) (iblk1 V c 6 t) ((dat1 V c).before 9 t d9)) := by
  obtain ⟨_ | n, hn⟩ := t
  · exact ⟨rfl, rfl⟩
  · have h0 : (⟨n + 1, hn⟩ : Fin cfg1.N).val ≠ 0 := Nat.succ_ne_zero n
    rw [if_neg h0, if_neg h0, before1_acc V c 8 (.inl rfl) _ h0, before1_acc V c 9 (.inr rfl) _ h0]
    dsimp only [dat1, o1_8, o1_9]
    exact ⟨rfl, rfl⟩

/-- The body meets its obligation at every point. -/
theorem body_obligation1 (c : Dev nD) : BodyObligation (dat1 (F := F) V c) (defs₀ (F := F)) Variants.none () Set.univ := fun t => by
  obtain ⟨b0, b1, b2, b3, b4, b5, b6⟩ := before1_in V c t
  rw [bigSep_W1, bigSep_W1]
  dsimp only
  simp only [b0, b1, b2, b3, b4, b5, b6, (live1 _).1, (live1 _).2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rewrite [(acc1_eq V c t d8 d9).1, (acc1_eq V c t d8 d9).2, show (dat1 V c).owesAt () t.succ = (dat1 V c).owesAt () t.castSucc from rfl]
  dsimp only [dat1, o1_7]
  iapply (sound_kernel1 (iblk1 V c 0 t) (iblk1 V c 1 t) (iblk1 V c 2 t) (iblk1 V c 3 t) (iblk1 V c 4 t) (iblk1 V c 5 t) (iblk1 V c 6 t) c Set.univ (grid1.coords t) _ _ _ _ _ _ _ _ _ _ _ _ _ _ _ _ _ _ _ _ (t.val = 0) (hcond1 t) _ _ _)
  isplitl [HΦ Ho]
  · iintro ⟨H7, H8, H9, H0, H1, H2, H3, H4, H5, H6⟩
    isplitl [HΦ]; · iexact HΦ
    isplitl [Ho]; · iexact Ho
    sl_close
  · sl_close

end Cert.Kernel.Hand

end
-- ==== Proof.K.R2.lean ====
import proofs.«426721_j37477884625195_1_alg».proof.Proof.Gen.Kernel.Launch
import proofs.«426721_j37477884625195_1_alg».proof.Proof.Gen.Kernel.Skeleton
import proofs.«426721_j37477884625195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (x0 : Vec F S2048x256 .f32) (x1 x2 x3 x4 : Vec F S256 .f32) (x5 : Vec F S256x128 .f32) (x6 : Vec F S128 .f32)

def rows2 : Vec F S2048x128 .f32 := k2_pay3 x0 x2 x3 x1 x4 x5 x6
def sums2 : Vec F S128 .f32 := k2_pay4 x0 x2 x3 x1 x4 x5 x6
def sqs2 : Vec F S128 .f32 := k2_pay5 x0 x2 x3 x1 x4 x5 x6

def acc2_8 (c : Dev nD) : (n : ℕ) → n < cfg2.N → Vec F S128 .f32
  | 0, hn => sums2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn => k2_pay1 (sums2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)) (acc2_8 c n (Nat.lt_of_succ_lt hn))

def acc2_9 (c : Dev nD) : (n : ℕ) → n < cfg2.N → Vec F S128 .f32
  | 0, hn => sqs2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn => k2_pay2 (sqs2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)) (acc2_9 c n (Nat.lt_of_succ_lt hn))

def o2_7 (c : Dev nD) (t : Fin cfg2.N) : Vec F S2048x128 .f32 :=
  rows2 (iblk2 V c 0 t) (iblk2 V c 1 t) (iblk2 V c 2 t) (iblk2 V c 3 t) (iblk2 V c 4 t) (iblk2 V c 5 t) (iblk2 V c 6 t)

def o2_8 (c : Dev nD) (t : Fin cfg2.N) : Vec F S128 .f32 :=
  acc2_8 V c t.val t.isLt

def o2_9 (c : Dev nD) (t : Fin cfg2.N) : Vec F S128 .f32 :=
  acc2_9 V c t.val t.isLt

theorem offs2_1 : (![0] : Fin 1 → Nat) = fun _ => 0 := funext fun a => by fin_cases a <;> rfl
theorem offs2_2 : (![0, 0] : Fin 2 → Nat) = fun _ => 0 := funext fun a => by fin_cases a <;> rfl

/-- One store through the whole-shape rectangle at zero offsets covers every index. -/
theorem cover2 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond2 : ∀ t : Fin grid2.N, t.val = 0 ∧ k2_cond1 (grid2.coords t) = 1#1 ∧ ¬k2_cond2 (grid2.coords t) = 1#1
    ∨ ¬t.val = 0 ∧ ¬k2_cond1 (grid2.coords t) = 1#1 ∧ k2_cond2 (grid2.coords t) = 1#1 := by decide +kernel

/-- One run of the body serves both kinds of point, `z` saying whether it is the first: a later point adds its sums to what the accumulators held. -/
theorem sound_kernel2 (c : Dev nD) (E : Set ℕ) (i : grid2.Coords) (arg1 : Memref sig .tc .vmem S2048x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S128 .f32) (harg9 : arg9.IsWhole) (arg10 : Memref sig .tc .vmem S128 .f32) (harg10 : arg10.IsWhole)
    (z : Prop) [Decidable z]
    (h : z ∧ k2_cond1 i = 1#1 ∧ ¬k2_cond2 i = 1#1 ∨ ¬z ∧ ¬k2_cond1 i = 1#1 ∧ k2_cond2 i = 1#1) (a8 a9 : Vec F S128 .f32) (K : PUnit → sProp 𝕄) :
    iprop((iprop(owns (c : Thread nD τ) arg8 fullShare (rows2 x0 x1 x2 x3 x4 x5 x6) ∗ owns (c : Thread nD τ) arg9 fullShare (if z then sums2 x0 x1 x2 x3 x4 x5 x6 else k2_pay1 (sums2 x0 x1 x2 x3 x4 x5 x6) a8)
            ∗ owns (c : Thread nD τ) arg10 fullShare (if z then sqs2 x0 x1 x2 x3 x4 x5 x6 else k2_pay2 (sqs2 x0 x1 x2 x3 x4 x5 x6) a9)
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare a8 ∗ owns (c : Thread nD τ) arg10 fullShare a9)
      ⊢ wp frame (wpE (defs₀ (F := F)) Variants.none c none) E (cc2__bn_relu_kernel i arg1 harg1 arg2 harg2 arg3 harg3 arg4 harg4 arg5 harg5 arg6 harg6 arg7 harg7 arg8 harg8 arg9 harg9 arg10 harg10) K := by
  rcases h with ⟨hz, hc1, hc2⟩ | ⟨hz, hc1, hc2⟩ <;> simp only [hz, ↓reduceIte] <;>
  · simp only [cc2__bn_relu_kernel_eq_skeleton]; unfold cc2__bn_relu_kernel_skel
    simp only [k2_part1_eq_skeleton]
    unfold owns
    iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩⟩
    subst hf0 hf1 hf2 hf3 hf4 hf5 hf6 hf8 hf9
    sl_exec (disch := first | exact hc1 | exact hc2)
    sl_step
    iapply Hk
    isplitl [H7]; iexists _; isplitr; swap; iexact H7; rotate_left
    isplitl [H8]; iexists _; isplitr; swap; iexact H8; rotate_left
    isplitl [H9]; iexists _; isplitr; swap; iexact H9; rotate_left
    sl_close
    all_goals
      ipureintro
      refine (View.read_writes_eq_canon _ _ _ (cover2 (by decide) _ _)).trans ?_
      sl_unfold_words
      simp only [rows2, sums2, sqs2, View.canon_unit_zero (S := S2048x128) offs2_2, View.canon_unit_zero (S := S128) offs2_1, View.readAt_eq_ld,
        View.ld_unit_zero (S := S2048x256) offs2_2, View.ld_unit_zero (S := S256x128) offs2_2, View.ld_unit_zero (S := S256) offs2_1,
        View.ld_unit_zero (S := S128) offs2_1]

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => o2_7 V c t
    | ⟨8, _⟩ => o2_8 V c t
    | ⟨9, _⟩ => o2_9 V c t
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t = o2_7 V c t := rfl
theorem after2_8 (c : Dev nD) (t : Fin cfg2.N) : (dat2 V c).after 8 t = o2_8 V c t := rfl
theorem after2_9 (c : Dev nD) (t : Fin cfg2.N) : (dat2 V c).after 9 t = o2_9 V c t := rfl

/-- What the body reads at a point: each input's block of its array, -/
theorem before2_in (c : Dev nD) (t : Fin cfg2.N) : (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;>
    exact fun d => ((dat2 V c).before_in_eq_fetched _ rfl (fun _ => rfl) (fun _ _ _ => rfl) (fun _ => rfl) t d).trans rfl

theorem live2 : ∀ i : grid2.Coords, idle2 8 i = false ∧ idle2 9 i = false := by decide +kernel

/-- and, after the first point, each accumulator as the point before left it. -/
theorem before2_acc (c : Dev nD) (w : Fin cfg2.W) (hw : w = 8 ∨ w = 9) (t : Fin cfg2.N) (h0 : t.val ≠ 0) (d) :
    (dat2 V c).before w t d = (dat2 V c).after w ⟨t.val - 1, Nat.lt_of_le_of_lt (Nat.sub_le _ _) t.isLt⟩ := by
  have hN : t.val < 128 := lt_of_lt_of_eq t.isLt (show cfg2.N = 128 from N_2)
  rcases hw with rfl | rfl <;>
    exact Dat.before_out_kept _ _ rfl t h0 (Bool.eq_false_iff.mpr fun h => by
      first | have := (flush2_8 _).mp h | have := (flush2_9 _).mp h
      dsimp only at this; omega) (fun i => by first | exact (live2 i).1 | exact (live2 i).2) (fun _ _ => rfl) d

/-- What each accumulator holds after the body, by kind of point. -/
theorem acc2_eq (c : Dev nD) (t : Fin cfg2.N) (d8 d9) :
    (dat2 V c).after 8 t = (if t.val = 0 then sums2 (iblk2 V c 0 t) (iblk2 V c 1 t) (iblk2 V c 2 t) (iblk2 V c 3 t) (iblk2 V c 4 t) (iblk2 V c 5 t) (iblk2 V c 6 t) else k2_pay1 (sums2 (iblk2 V c 0 t) (iblk2 V c 1 t) (iblk2 V c 2 t) (iblk2 V c 3 t) (iblk2 V c 4 t) (iblk2 V c 5 t) (iblk2 V c 6 t)) ((dat2 V c).before 8 t d8))
    ∧ (dat2 V c).after 9 t = (if t.val = 0 then sqs2 (iblk2 V c 0 t) (iblk2 V c 1 t) (iblk2 V c 2 t) (iblk2 V c 3 t) (iblk2 V c 4 t) (iblk2 V c 5 t) (iblk2 V c 6 t) else k2_pay2 (sqs2 (iblk2 V c 0 t) (iblk2 V c 1 t) (iblk2 V c 2 t) (iblk2 V c 3 t) (iblk2 V c 4 t) (iblk2 V c 5 t) (iblk2 V c 6 t)) ((dat2 V c).before 9 t d9)) := by
  obtain ⟨_ | n, hn⟩ := t
  · exact ⟨rfl, rfl⟩
  · have h0 : (⟨n + 1, hn⟩ : Fin cfg2.N).val ≠ 0 := Nat.succ_ne_zero n
    rw [if_neg h0, if_neg h0, before2_acc V c 8 (.inl rfl) _ h0, before2_acc V c 9 (.inr rfl) _ h0]
    dsimp only [dat2, o2_8, o2_9]
    exact ⟨rfl, rfl⟩

/-- The body meets its obligation at every point. -/
theorem body_obligation2 (c : Dev nD) : BodyObligation (dat2 (F := F) V c) (defs₀ (F := F)) Variants.none () Set.univ := fun t => by
  obtain ⟨b0, b1, b2, b3, b4, b5, b6⟩ := before2_in V c t
  rw [bigSep_W2, bigSep_W2]
  dsimp only
  simp only [b0, b1, b2, b3, b4, b5, b6, (live2 _).1, (live2 _).2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rewrite [(acc2_eq V c t d8 d9).1, (acc2_eq V c t d8 d9).2, show (dat2 V c).owesAt () t.succ = (dat2 V c).owesAt () t.castSucc from rfl]
  dsimp only [dat2, o2_7]
  iapply (sound_kernel2 (iblk2 V c 0 t) (iblk2 V c 1 t) (iblk2 V c 2 t) (iblk2 V c 3 t) (iblk2 V c 4 t) (iblk2 V c 5 t) (iblk2 V c 6 t) c Set.univ (grid2.coords t) _ _ _ _ _ _ _ _ _ _ _ _ _ _ _ _ _ _ _ _ (t.val = 0) (hcond2 t) _ _ _)
  isplitl [HΦ Ho]
  · iintro ⟨H7, H8, H9, H0, H1, H2, H3, H4, H5, H6⟩
    isplitl [HΦ]; · iexact HΦ
    isplitl [Ho]; · iexact Ho
    sl_close
  · sl_close

end Cert.Kernel.Hand

end
-- ==== Proof.K.R3.lean ====
import proofs.«426721_j37477884625195_1_alg».proof.Proof.Gen.Kernel.Launch
import proofs.«426721_j37477884625195_1_alg».proof.Proof.Gen.Kernel.Skeleton
import proofs.«426721_j37477884625195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S2048x128 := Rect.unit (s := S2048x128) ![0, 0] S2048x128.size inb_S2048x128_S2048x128_0_0
abbrev rB3 : Rect S128 := Rect.unit (s := S128) ![0] S128.size inb_S128_S128_0
abbrev rC3 : Rect S128x1 := Rect.unit (s := S128x1) ![0, 0] S128x1.size inb_S128x1_S128x1_0_0
abbrev rD3 : Rect S1 := Rect.unit (s := S1) ![0] S1.size inb_S1_S1_0
abbrev rE3 : Rect S2048x1 := Rect.unit (s := S2048x1) ![0, 0] S2048x1.size inb_S2048x1_S2048x1_0_0

def out3_7 (x0 : Vec F S2048x128 .f32) (x1 x2 x3 x4 : Vec F S128 .f32) (x5 : Vec F S128x1 .f32) (x6 : Vec F S1 .f32) :
    Vec F S2048x1 .f32 :=
  View.canon [⟨rE3, k3_pay1 (View.ld x0 rA3) (View.ld x2 rB3) (View.ld x3 rB3) (View.ld x1 rB3) (View.ld x4 rB3)
    (View.ld x5 rC3) (View.ld x6 rD3)⟩]

def o3_7 (c : Dev nD) (t : Fin cfg3.N) : Vec F S2048x1 .f32 :=
  out3_7 (iblk3 V c 0 t) (iblk3 V c 1 t) (iblk3 V c 2 t) (iblk3 V c 3 t) (iblk3 V c 4 t) (iblk3 V c 5 t) (iblk3 V c 6 t)

section
variable (c : Dev nD) (a0 : Memref sig .tc .vmem S2048x128 .f32) (a1 a2 a3 a4 : Memref sig .tc .vmem S128 .f32)
  (a5 : Memref sig .tc .vmem S128x1 .f32) (a6 : Memref sig .tc .vmem S1 .f32) (a7 : Memref sig .tc .vmem S2048x1 .f32)
  (x0 : Vec F S2048x128 .f32) (x1 x2 x3 x4 : Vec F S128 .f32) (x5 : Vec F S128x1 .f32) (x6 : Vec F S1 .f32)

/-- The seven input buffers, each owned whole at its contents. -/
def ins3 : sProp 𝕄 :=
  iprop(owns (c : Thread nD τ) a0 fullShare x0 ∗ owns (c : Thread nD τ) a1 fullShare x1 ∗ owns (c : Thread nD τ) a2 fullShare x2 ∗ owns (c : Thread nD τ) a3 fullShare x3
    ∗ owns (c : Thread nD τ) a4 fullShare x4 ∗ owns (c : Thread nD τ) a5 fullShare x5 ∗ owns (c : Thread nD τ) a6 fullShare x6)

set_option maxHeartbeats 4000000 in
/-- On whole buffers the body keeps the inputs and leaves in the output its one store, computed from the inputs. -/
theorem sound_kernel3 (E : Set ℕ) (i : grid3.Coords) (ha0 : a0.IsWhole) (ha1 : a1.IsWhole) (ha2 : a2.IsWhole) (ha3 : a3.IsWhole)
    (ha4 : a4.IsWhole) (ha5 : a5.IsWhole) (ha6 : a6.IsWhole) (ha7 : a7.IsWhole) (K : PUnit → sProp 𝕄) :
    iprop(ins3 c a0 a1 a2 a3 a4 a5 a6 x0 x1 x2 x3 x4 x5 x6 ∗ (∃ d, owns (c : Thread nD τ) a7 fullShare d)
        ∗ (iprop(owns (c : Thread nD τ) a7 fullShare (out3_7 x0 x1 x2 x3 x4 x5 x6) ∗ ins3 c a0 a1 a2 a3 a4 a5 a6 x0 x1 x2 x3 x4 x5 x6) -∗ K ⟨⟩))
      ⊢ wp frame (wpE (defs₀ (F := F)) Variants.none c none) E
          (cc3__bn_out_kernel i a0 ha0 a1 ha1 a2 ha2 a3 ha3 a4 ha4 a5 ha5 a6 ha6 a7 ha7) K := by
  simp only [cc3__bn_out_kernel_eq_skeleton]; unfold cc3__bn_out_kernel_skel
  unfold ins3 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S2048x1.size (by rfl))
  sl_close

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => o3_7 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = o3_7 V c t := by dsimp only [dat3]

/-- What the body reads at a point is each input's block of its array. -/
theorem before3 (c : Dev nD) (t : Fin cfg3.N) : ∀ w : Fin cfg3.W, (cfg3.win w).isOut = false → ∀ d, (dat3 V c).before w t d = (dat3 V c).after w t
  | ⟨0, _⟩, h, d | ⟨1, _⟩, h, d | ⟨2, _⟩, h, d | ⟨3, _⟩, h, d | ⟨4, _⟩, h, d | ⟨5, _⟩, h, d | ⟨6, _⟩, h, d =>
    ((dat3 V c).before_in_eq_fetched _ h (fun _ => rfl) (fun _ _ _ => rfl) (fun _ => rfl) t d).trans rfl
  | ⟨7, _⟩, h, _ => nomatch h

set_option maxHeartbeats 1000000 in
/-- At every point the body reads the inputs' blocks, so its triple applies. -/
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  dsimp only
  rw [show (dat3 V c).Φ t.succ = (dat3 V c).Φ t.castSucc from rfl,
    show (dat3 V c).owesAt () t.succ = (dat3 V c).owesAt () t.castSucc from rfl]
  simp only [before3 V c t 0 rfl, before3 V c t 1 rfl, before3 V c t 2 rfl, before3 V c t 3 rfl, before3 V c t 4 rfl,
    before3 V c t 5 rfl, before3 V c t 6 rfl]
  dsimp only [dat3, o3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c _ _ _ _ _ _ _ _ (iblk3 V c 0 t) (iblk3 V c 1 t) (iblk3 V c 2 t) (iblk3 V c 3 t) (iblk3 V c 4 t) (iblk3 V c 5 t) (iblk3 V c 6 t) Set.univ _ _ _ _ _ _ _ _ _ _)
  unfold ins3
  iframe H0 H1 H2 H3 H4 H5 H6
  isplitl [H7]; · iexists _; iexact H7
  iintro ⟨H7, H0, H1, H2, H3, H4, H5, H6⟩
  iframe

end Cert.Kernel.Hand

end
-- ==== Proof.K.Run.lean ====
import proofs.«426721_j37477884625195_1_alg».proof.Proof.Gen.Kernel.Launch
import proofs.«426721_j37477884625195_1_alg».proof.Proof.Gen.Kernel.Regions
import proofs.«426721_j37477884625195_1_alg».proof.Proof.K.R0
import proofs.«426721_j37477884625195_1_alg».proof.Proof.K.R1
import proofs.«426721_j37477884625195_1_alg».proof.Proof.K.R2
import proofs.«426721_j37477884625195_1_alg».proof.Proof.K.R3
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Overwriting the arrays by their last contents changes no buffer that is none of them, nor an array whose last contents are its first. -/
theorem keepH {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (dat.arrAt · cfg.N) (Proc.devRef .tc b) = V (Proc.devRef .tc b) := by
  by_cases h : ∃ w, Pipeline.arrRef cfg.spec w = b
  · obtain ⟨w, rfl⟩ := h
    exact (Pipeline.withArrays_arr _ hinj c V _ w).trans ((dat.arrAt_in w (hb w rfl) _).trans (hA w))
  · exact Pipeline.withArrays_of_ne _ c V _ b fun w e => h ⟨w, e⟩

abbrev We0 : Dev nD → Valuation τ sig (Elt F) := fun c b => (s₀ m ρ).mem ((c : Dev nD), b)
abbrev Ve0 : (c : Dev nD) → (b : Ref sig .tc) → Buf (Elt F) ((c : Thread nD τ).loc b) := fun c b => We0 m ρ c b
def Wx0 (c : Dev nD) : Valuation τ sig (Elt F) :=
  Pipeline.withArrays spec0 c (We0 m ρ c) fun w => (dat0 (Ve0 m ρ) c).arrAt w cfg0.N
theorem Wx0_arr (c : Dev nD) (w : Fin cfg0.W) :
    Wx0 m ρ c (Proc.devRef .tc (Pipeline.arrRef spec0 w)) = (dat0 (Ve0 m ρ) c).arrAt w cfg0.N :=
  Pipeline.withArrays_arr spec0 launch0.win.arr_inj c _ _ w
theorem Wx0_keep (c : Dev nD) (b : Ref sig .tc) (hb : ∀ w, Pipeline.arrRef spec0 w = b → (cfg0.win w).isOut = false) :
    Wx0 m ρ c (Proc.devRef .tc b) = We0 m ρ c (Proc.devRef .tc b) :=
  keepH (dat0 (Ve0 m ρ) c) launch0.win.arr_inj _ (A_eq0 _ c) b hb

abbrev We1 : Dev nD → Valuation τ sig (Elt F) := fun c => StableHlo.after hostOps1 (Wx0 m ρ c)
abbrev Ve1 : (c : Dev nD) → (b : Ref sig .tc) → Buf (Elt F) ((c : Thread nD τ).loc b) := fun c b => We1 m ρ c b
theorem We1_keep (c : Dev nD) (b : Ref sig .tc) (hb : b ∉ hostOps1_W) :
    We1 m ρ c (Proc.devRef .tc b) = Wx0 m ρ c (Proc.devRef .tc b) :=
  StableHlo.after_of_writes_sub hostOps1 _ hostOps1_writes hb
def Wx1 (c : Dev nD) : Valuation τ sig (Elt F) :=
  Pipeline.withArrays spec1 c (We1 m ρ c) fun w => (dat1 (Ve1 m ρ) c).arrAt w cfg1.N
theorem Wx1_arr (c : Dev nD) (w : Fin cfg1.W) :
    Wx1 m ρ c (Proc.devRef .tc (Pipeline.arrRef spec1 w)) = (dat1 (Ve1 m ρ) c).arrAt w cfg1.N :=
  Pipeline.withArrays_arr spec1 launch1.win.arr_inj c _ _ w
theorem Wx1_keep (c : Dev nD) (b : Ref sig .tc) (hb : ∀ w, Pipeline.arrRef spec1 w = b → (cfg1.win w).isOut = false) :
    Wx1 m ρ c (Proc.devRef .tc b) = We1 m ρ c (Proc.devRef .tc b) :=
  keepH (dat1 (Ve1 m ρ) c) launch1.win.arr_inj _ (A_eq1 _ c) b hb

abbrev We2 : Dev nD → Valuation τ sig (Elt F) := fun c => StableHlo.after hostOps2 (Wx1 m ρ c)
abbrev Ve2 : (c : Dev nD) → (b : Ref sig .tc) → Buf (Elt F) ((c : Thread nD τ).loc b) := fun c b => We2 m ρ c b
theorem We2_keep (c : Dev nD) (b : Ref sig .tc) (hb : b ∉ hostOps2_W) :
    We2 m ρ c (Proc.devRef .tc b) = Wx1 m ρ c (Proc.devRef .tc b) :=
  StableHlo.after_of_writes_sub hostOps2 _ hostOps2_writes hb
def Wx2 (c : Dev nD) : Valuation τ sig (Elt F) :=
  Pipeline.withArrays spec2 c (We2 m ρ c) fun w => (dat2 (Ve2 m ρ) c).arrAt w cfg2.N
theorem Wx2_arr (c : Dev nD) (w : Fin cfg2.W) :
    Wx2 m ρ c (Proc.devRef .tc (Pipeline.arrRef spec2 w)) = (dat2 (Ve2 m ρ) c).arrAt w cfg2.N :=
  Pipeline.withArrays_arr spec2 launch2.win.arr_inj c _ _ w
theorem Wx2_keep (c : Dev nD) (b : Ref sig .tc) (hb : ∀ w, Pipeline.arrRef spec2 w = b → (cfg2.win w).isOut = false) :
    Wx2 m ρ c (Proc.devRef .tc b) = We2 m ρ c (Proc.devRef .tc b) :=
  keepH (dat2 (Ve2 m ρ) c) launch2.win.arr_inj _ (A_eq2 _ c) b hb

abbrev We3 : Dev nD → Valuation τ sig (Elt F) := fun c => StableHlo.after hostOps3 (Wx2 m ρ c)
abbrev Ve3 : (c : Dev nD) → (b : Ref sig .tc) → Buf (Elt F) ((c : Thread nD τ).loc b) := fun c b => We3 m ρ c b
theorem We3_keep (c : Dev nD) (b : Ref sig .tc) (hb : b ∉ hostOps3_W) :
    We3 m ρ c (Proc.devRef .tc b) = Wx2 m ρ c (Proc.devRef .tc b) :=
  StableHlo.after_of_writes_sub hostOps3 _ hostOps3_writes hb
def Wx3 (c : Dev nD) : Valuation τ sig (Elt F) :=
  Pipeline.withArrays spec3 c (We3 m ρ c) fun w => (dat3 (Ve3 m ρ) c).arrAt w cfg3.N
theorem Wx3_arr (c : Dev nD) (w : Fin cfg3.W) :
    Wx3 m ρ c (Proc.devRef .tc (Pipeline.arrRef spec3 w)) = (dat3 (Ve3 m ρ) c).arrAt w cfg3.N :=
  Pipeline.withArrays_arr spec3 launch3.win.arr_inj c _ _ w
theorem Wx3_keep (c : Dev nD) (b : Ref sig .tc) (hb : ∀ w, Pipeline.arrRef spec3 w = b → (cfg3.win w).isOut = false) :
    Wx3 m ρ c (Proc.devRef .tc b) = We3 m ρ c (Proc.devRef .tc b) :=
  keepH (dat3 (Ve3 m ρ) c) launch3.win.arr_inj _ (A_eq3 _ c) b hb

abbrev argsH : List (Ref sig .tc) := [main_arg0, main_arg1, main_arg2, main_arg3, main_arg4, main_arg5, main_arg6, main_arg7, main_arg8, main_arg9, main_arg10, main_arg11, main_arg12, main_arg13, main_arg14, main_arg15]

/-- An argument array is no region's output, and no host operation writes it. -/
theorem argsH_keep : ∀ b ∈ argsH, ¬ (Proc.devRef .tc b : DevRef τ sig).isScoped
    ∧ (∀ w, Pipeline.arrRef spec0 w = b → (cfg0.win w).isOut = false) ∧ b ∉ hostOps1_W
    ∧ (∀ w, Pipeline.arrRef spec1 w = b → (cfg1.win w).isOut = false) ∧ b ∉ hostOps2_W
    ∧ (∀ w, Pipeline.arrRef spec2 w = b → (cfg2.win w).isOut = false) ∧ b ∉ hostOps3_W
    ∧ (∀ w, Pipeline.arrRef spec3 w = b → (cfg3.win w).isOut = false) := by decide

theorem Wx3_arg (c : Dev nD) (b : Ref sig .tc) (hb : b ∈ argsH) :
    Wx3 m ρ c (Proc.devRef .tc b) = m ((c : Thread nD τ).loc b) :=
  have ⟨_, h0, h1, h1x, h2, h2x, h3, h3x⟩ := argsH_keep b hb
  (Wx3_keep m ρ c b h3x).trans <| (We3_keep m ρ c b h3).trans <| (Wx2_keep m ρ c b h2x).trans <|
  (We2_keep m ρ c b h2).trans <| (Wx1_keep m ρ c b h1x).trans <| (We1_keep m ρ c b h1).trans <|
  (Wx0_keep m ρ c b h0).trans rfl

def pdatsH : (p : Fin 4) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wx3 m ρ c) ∗ ∃ r, prngReg c r)

/-- Region `p`: entered with the buffers at `We`, left with its arrays at their last contents and the rest as entered. -/
def regH (p : Fin 4) (lf : Pipeline.LaunchFacts (nD := nD) (τ := τ) cfgs p) (We : Dev nD → Valuation τ sig (Elt F))
    (hb : ∀ c, BodyObligation (pdatsH m ρ p c) (defs₀ (F := F)) Variants.none () Set.univ)
    (howed : ∀ c t, (pdatsH m ρ p c).owed t = 0 := by exact fun _ _ => rfl)
    (hq : ∀ c w, (pdatsH m ρ p c).q w = fullShare := by exact fun _ _ => rfl)
    (hA : ∀ c w, (pdatsH m ρ p c).A w = We c (Proc.devRef .tc (Pipeline.arrRef (cfgs p).spec w)) := by exact fun _ _ => rfl)
    (hΦ : ∀ c i, (pdatsH m ρ p c).Φ i = Pipeline.ΦA (cfgs p).spec c := by exact fun _ _ => rfl)
    (hrec : ∀ c x, x ∈ (pdatsH m ρ p c).recorded 0 := by exact fun _ _ => trivial) :
    Pipeline.RegionSeg (pcfgs (F := F)) adm (pdatsH m ρ) () defs₀ 𝒱H LH lvH p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ LH lvH p howed
  pre c := iprop(StableHlo.held (c : Thread nD τ) (Pipeline.ucRefs τ sig) (We c) ∗ RH c)
  post c := iprop(StableHlo.held (c : Thread nD τ) (Pipeline.ucRefs τ sig)
    (Pipeline.withArrays (cfgs p).spec c (We c) fun w => (pdatsH m ρ p c).arrAt w (cfgs p).N) ∗ RH c)
  X c := iprop(∃ r, prngReg c r)
  Y c := iprop(∃ r, prngReg c r)
  Z c := Pipeline.unscopedRest (Ix := Unit) (Name := ℕ) (U := UR sig nD τ) (Lvl := ℕ) (cfgs p).spec c fun b => We c b
  hentry c := by
    rw [Pipeline.ownSems0_none]
    have hsplit := Pipeline.arrays_of_unscopedBufs (p := p) (pcfgs (F := F)) adm (pdatsH m ρ) lf.win lf.arr_whole c
      ((pdatsH m ρ p c).share_full (hq c)) (fun b => We c b) (hA c)
    rw [Pipeline.unscopedBufs_held] at hsplit
    iintro ⟨⟨Hub, Hp, HO⟩, -, -⟩
    ihave H := hsplit $$ Hub
    icases H with ⟨Ha, Hrest⟩
    imodintro; iframe
    isplitr; · unfold Pipeline.prefHeld; rw [show (Finset.univ : Finset (Fin 0)) = ∅ from rfl, BI.bigSep_empty]; iempintro
    unfold Pipeline.Dat.owesAt Pipeline.owesWithin; rw [howed]
    icases HO with ⟨%W, HO⟩; iexists W; isplitr; · ipureintro; exact fun x _ => Or.inl (hrec c x)
    iexact HO
  hin c := by
    rw [hΦ]; unfold Pipeline.ΦA
    iintro ⟨Hp, -, Hr⟩; iframe
  hout c := by
    rw [Pipeline.ownSems0_none, hΦ]; unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      lf.win lf.arr_whole c (pdatsH m ρ) ((pdatsH m ρ p c).share_full (hq c)) (fun b => We c b)
      (fun b => Pipeline.withArrays (cfgs p).spec c (We c) (fun w => (pdatsH m ρ p c).arrAt w (cfgs p).N) b)
      ((pdatsH m ρ p c).arrAt · (cfgs p).N)
      (fun w => (Pipeline.withArrays_arr (cfgs p).spec lf.win.arr_inj c (We c) ((pdatsH m ρ p c).arrAt · (cfgs p).N) w).symm)
      fun b hb => Pipeline.withArrays_of_ne (cfgs p).spec c (We c) ((pdatsH m ρ p c).arrAt · (cfgs p).N) b
        fun w e => hb (Finset.mem_image.mpr ⟨w, Finset.mem_univ _, e⟩)
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin; rw [howed]
    icases HO with ⟨%W, -, HO⟩; iexists W; iexact HO

abbrev segsH : List (Pipeline.Seg (pcfgs (F := F)) adm (pdatsH m ρ) () defs₀ 𝒱H LH lvH) :=
  [ .region (regH m ρ 0 launch0 (We0 m ρ) (body_obligation0 _)),
    .host (hsegH hostOps1 hostOps1_sub hostOps1_fresh (Wx0 m ρ)),
    .region (regH m ρ 1 launch1 (We1 m ρ) (body_obligation1 _)),
    .host (hsegH hostOps2 hostOps2_sub hostOps2_fresh (Wx1 m ρ)),
    .region (regH m ρ 2 launch2 (We2 m ρ) (body_obligation2 _)),
    .host (hsegH hostOps3 hostOps3_sub hostOps3_fresh (Wx2 m ρ)),
    .region (regH m ρ 3 launch3 (We3 m ρ) (body_obligation3 _)) ]
theorem main_runH (c : Dev nD) : main (F := F) c = Pipeline.Seg.run (segsH m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = Wx3 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (We0 m ρ c) ∗ RH c)) (Tₙ := TnH m ρ)
    (hch := ⟨fun _ => .rfl, fun _ => .rfl, fun _ => .rfl, fun _ => .rfl, fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (We0 m ρ c)
        from Pipeline.unscopedBufs_held c (We0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wx3 m ρ c) s')
      isplitl [Hh] <;> iassumption)
    (hQ := fun s h => h)

theorem run_val : θ_run defs (onTc (τ := τ) (main (F := F))) ⟨m, fun _ => 0, ρ⟩ (fun r => ∀ c : Dev nD,
      r.2.mem ((c.tc : Thread nD τ).loc main_v21) = (dat3 (Ve3 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_ucH main_v21 (by decide))).trans (Wx3_arr m ρ c 7),
    (List.forall_iff_forall_mem (l := argsH)
      (p := fun b => r.2.mem ((c.tc : Thread nD τ).loc b) = m ((c.tc : Thread nD τ).loc b))).mpr
      fun b hb => (h c _ (mem_ucH b (argsH_keep b hb).1)).trans (Wx3_arg m ρ c b hb)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => (h c).2) (run_val m ρ)

end Cert.Kernel.Hand

end
-- ==== Proof.KI.EmbDef.lean ====
import proofs.«426721_j37477884625195_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The block of looked-up features: for each of the 17 tables, the rows' one-hot indicator times the table, side by side. -/
def embBlk (v0 : Vec F S2048x17 .i32) (tb : Fin 17 → Vec F S1x512x16 .f32) : FVec F S2048x272 .f32 :=
  have v1 : IVec S2048x512 32 := iota .tc S2048x512 32 [1] iota_S2048x512_d1_w32
  concatenate S2048x272 1
    [⟨S2048x16, k0_pay6 v0 (tb 0)⟩, ⟨S2048x16, k0_pay7 v0 (tb 1)⟩, ⟨S2048x16, k0_pay8 v0 (tb 2)⟩,
     ⟨S2048x16, k0_pay11 (k0_pay9 v0) (k0_pay10 (tb 3)) (constant S2048x16 .f32 0x00000000#32)⟩,
     ⟨S2048x16, k0_pay12 v0 v1 (tb 4)⟩, ⟨S2048x16, k0_pay13 v0 v1 (tb 5)⟩, ⟨S2048x16, k0_pay14 v0 v1 (tb 6)⟩,
     ⟨S2048x16, k0_pay15 v0 v1 (tb 7)⟩, ⟨S2048x16, k0_pay17 (k0_pay16 v0 v1) (tb 8)⟩,
     ⟨S2048x16, k0_pay18 v0 v1 (tb 9)⟩, ⟨S2048x16, k0_pay19 v0 v1 (tb 10)⟩, ⟨S2048x16, k0_pay20 v0 v1 (tb 11)⟩,
     ⟨S2048x16, k0_pay22 (k0_pay21 v0 v1) (tb 12)⟩, ⟨S2048x16, k0_pay23 v0 v1 (tb 13)⟩,
     ⟨S2048x16, k0_pay24 v0 v1 (tb 14)⟩, ⟨S2048x16, k0_pay25 v0 v1 (tb 15)⟩,
     ⟨S2048x16, k0_pay1 (k0_pay26 v0 v1) (k0_pay27 (tb 16))⟩]
    concatenates_S2048x16_S2048x16_S2048x16_S2048x16_S2048x16_S2048x16_S2048x16_S2048x16_S2048x16_S2048x16_S2048x16_S2048x16_S2048x16_S2048x16_S2048x16_S2048x16_S2048x16_S2048x272_d1

end Cert.KernelIdeal.Hand

end
-- ==== Proof.KI.R0.lean ====
import proofs.«426721_j37477884625195_1_alg».proof.Proof.Gen.KernelIdeal.Launch
import proofs.«426721_j37477884625195_1_alg».proof.Proof.Gen.KernelIdeal.Skeleton
import proofs.«426721_j37477884625195_1_alg».proof.Proof.Gen.KernelIdeal.Points
import proofs.«426721_j37477884625195_1_alg».proof.Proof.KI.EmbDef
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rI : Rect S2048x17 := Rect.unit (s := S2048x17) ![0, 0] S2048x17.size inb_S2048x17_S2048x17_0_0
abbrev rW : Rect S272x256 := Rect.unit (s := S272x256) ![0, 0] S272x256.size inb_S272x256_S272x256_0_0
abbrev rL : Rect S256 := Rect.unit (s := S256) ![0] S256.size inb_S256_S256_0
abbrev rO : Rect S2048x256 := Rect.unit (s := S2048x256) ![0, 0] S2048x256.size inb_S2048x256_S2048x256_0_0

theorem inbT (j : Fin 17) : ∀ a, (![j.val, 0, 0] : Fin 3 → Nat) a + S1x512x16.size a ≤ S17x512x16.size a := by
  intro a
  have hj := j.isLt
  fin_cases a
  · show j.val + 1 ≤ 17; omega
  · show 0 + 512 ≤ 512; omega
  · show 0 + 16 ≤ 16; omega

abbrev rT (j : Fin 17) : Rect S17x512x16 := Rect.unit (s := S17x512x16) ![j.val, 0, 0] S1x512x16.size (inbT j)

def tabs (x1 : Vec F S17x512x16 .f32) : Fin 17 → Vec F S1x512x16 .f32 := fun j => View.ld x1 (rT j)

section
variable (x0 : Vec F S2048x17 .i32) (x1 : Vec F S17x512x16 .f32) (x2 : Vec F S272x256 .f32) (x3 : Vec F S256 .f32)

def h0blk : FVec F S2048x256 .f32 :=
  k0_pay2 (embBlk (View.ld x0 rI) (tabs x1)) (View.ld x2 rW) (View.ld x3 rL)

def sumblk : FVec F S256 .f32 :=
  multiReduction .add [0] S256 (h0blk x0 x1 x2 x3) 0x00000000#32 reduces_S2048x256_S256 (.inl rfl) rfl

def sqblk : FVec F S256 .f32 := k0_pay3 (h0blk x0 x1 x2 x3)

def out0_4 : Vec F S2048x256 .f32 :=
  View.canon [⟨rO, h0blk x0 x1 x2 x3⟩]

def out0_5_A : Vec F S256 .f32 :=
  View.canon [⟨rL, sumblk x0 x1 x2 x3⟩]

def out0_5_B (xo : Vec F S256 .f32) : Vec F S256 .f32 :=
  View.canon [⟨rL, k0_pay4 (sumblk x0 x1 x2 x3) (View.ld xo rL)⟩]

def out0_6_A : Vec F S256 .f32 :=
  View.canon [⟨rL, sqblk x0 x1 x2 x3⟩]

def out0_6_B (xo : Vec F S256 .f32) : Vec F S256 .f32 :=
  View.canon [⟨rL, k0_pay5 (sqblk x0 x1 x2 x3) (View.ld xo rL)⟩]

/-- One store through the whole-shape rectangle at zero offsets covers every index. -/
theorem cover0 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond0 : ∀ t : Fin grid0.N, t.val = 0 ∧ k0_cond1 (grid0.coords t) = 1#1 ∧ ¬k0_cond2 (grid0.coords t) = 1#1
    ∨ ¬t.val = 0 ∧ ¬k0_cond1 (grid0.coords t) = 1#1 ∧ k0_cond2 (grid0.coords t) = 1#1 := by decide +kernel

/-- One run of the body serves both kinds of point, `z` saying whether it is the first: a later point adds its sums to what the accumulators held. -/
theorem sound_kernel0 (c : Dev nD) (E : Set ℕ) (i : grid0.Coords) (arg1 : Memref sig .tc .vmem S2048x17 .i32) (harg1 : arg1.IsWhole) (arg2 : Memref sig .tc .vmem S17x512x16 .f32) (harg2 : arg2.IsWhole) (arg3 : Memref sig .tc .vmem S272x256 .f32) (harg3 : arg3.IsWhole) (arg4 : Memref sig .tc .vmem S256 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole)
    (z : Prop) [Decidable z]
    (h : z ∧ k0_cond1 i = 1#1 ∧ ¬k0_cond2 i = 1#1 ∨ ¬z ∧ ¬k0_cond1 i = 1#1 ∧ k0_cond2 i = 1#1) (xo5 xo6 : Vec F S256 .f32) (K : PUnit → sProp 𝕄) :
    iprop((iprop(owns (c : Thread nD τ) arg5 fullShare (out0_4 x0 x1 x2 x3) ∗ owns (c : Thread nD τ) arg6 fullShare (if z then out0_5_A x0 x1 x2 x3 else out0_5_B x0 x1 x2 x3 xo5)
            ∗ owns (c : Thread nD τ) arg7 fullShare (if z then out0_6_A x0 x1 x2 x3 else out0_6_B x0 x1 x2 x3 xo6)
            ∗ owns (c : Thread nD τ) arg1 fullShare x0 ∗ owns (c : Thread nD τ) arg2 fullShare x1 ∗ owns (c : Thread nD τ) arg3 fullShare x2 ∗ owns (c : Thread nD τ) arg4 fullShare x3) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6)
      ⊢ wp frame (wpE (defs₀ (F := F)) Variants.none c none) E (cc0__layer0_kernel i arg1 harg1 arg2 harg2 arg3 harg3 arg4 harg4 arg5 harg5 arg6 harg6 arg7 harg7) K := by
  rcases h with ⟨hz, hc1, hc2⟩ | ⟨hz, hc1, hc2⟩ <;> simp only [hz, ↓reduceIte] <;>
  · simp only [cc0__layer0_kernel_eq_skeleton]; unfold cc0__layer0_kernel_skel
    simp only [k0_part1_eq_skeleton, k0_part2_eq_skeleton, k0_part3_eq_skeleton, k0_part4_eq_skeleton]
    unfold owns
    iintro ⟨Hk, ⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩⟩
    subst hf0 hf1 hf2 hf3 hf5 hf6
    sl_exec (disch := first | exact hc1 | exact hc2)
    sl_step
    iapply Hk
    isplitl [H4]; iexists _; isplitr; swap; iexact H4; rotate_left
    isplitl [H5]; iexists _; isplitr; swap; iexact H5; rotate_left
    isplitl [H6]; iexists _; isplitr; swap; iexact H6; rotate_left
    sl_close
    all_goals ipureintro; exact View.read_writes_eq_canon _ _ _ (cover0 (by decide) _ _)

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0_5 (c : Dev nD) : (n : ℕ) → n < cfg0.N → Vec F S256 .f32
  | 0, hn => out0_5_A (iblk0 V c 0 ⟨0, hn⟩) (iblk0 V c 1 ⟨0, hn⟩) (iblk0 V c 2 ⟨0, hn⟩) (iblk0 V c 3 ⟨0, hn⟩)
  | n + 1, hn => out0_5_B (iblk0 V c 0 ⟨n + 1, hn⟩) (iblk0 V c 1 ⟨n + 1, hn⟩) (iblk0 V c 2 ⟨n + 1, hn⟩) (iblk0 V c 3 ⟨n + 1, hn⟩) (acc0_5 c n (Nat.lt_of_succ_lt hn))

def acc0_6 (c : Dev nD) : (n : ℕ) → n < cfg0.N → Vec F S256 .f32
  | 0, hn => out0_6_A (iblk0 V c 0 ⟨0, hn⟩) (iblk0 V c 1 ⟨0, hn⟩) (iblk0 V c 2 ⟨0, hn⟩) (iblk0 V c 3 ⟨0, hn⟩)
  | n + 1, hn => out0_6_B (iblk0 V c 0 ⟨n + 1, hn⟩) (iblk0 V c 1 ⟨n + 1, hn⟩) (iblk0 V c 2 ⟨n + 1, hn⟩) (iblk0 V c 3 ⟨n + 1, hn⟩) (acc0_6 c n (Nat.lt_of_succ_lt hn))

def o0_4 (c : Dev nD) (t : Fin cfg0.N) : Vec F S2048x256 .f32 :=
  out0_4 (iblk0 V c 0 t) (iblk0 V c 1 t) (iblk0 V c 2 t) (iblk0 V c 3 t)

def o0_5 (c : Dev nD) (t : Fin cfg0.N) : Vec F S256 .f32 :=
  acc0_5 V c t.val t.isLt

def o0_6 (c : Dev nD) (t : Fin cfg0.N) : Vec F S256 .f32 :=
  acc0_6 V c t.val t.isLt

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 V c t
    | ⟨5, _⟩ => o0_5 V c t
    | ⟨6, _⟩ => o0_6 V c t
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) : (dat0 V c).after 4 t = o0_4 V c t := by dsimp only [dat0]
theorem after0_5 (c : Dev nD) (t : Fin cfg0.N) : (dat0 V c).after 5 t = o0_5 V c t := by dsimp only [dat0]
theorem after0_6 (c : Dev nD) (t : Fin cfg0.N) : (dat0 V c).after 6 t = o0_6 V c t := by dsimp only [dat0]

/-- What the body reads at a point: each input's block of its array, -/
theorem before0_in (c : Dev nD) (t : Fin cfg0.N) : (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) := by
  refine ⟨?_, ?_, ?_, ?_⟩ <;>
    exact fun d => ((dat0 V c).before_in_eq_fetched _ rfl (fun _ => rfl) (fun _ _ _ => rfl) (fun _ => rfl) t d).trans rfl

theorem live0 : ∀ i : grid0.Coords, idle0 5 i = false ∧ idle0 6 i = false := by decide +kernel

/-- and, after the first point, each accumulator as the point before left it. -/
theorem before0_acc (c : Dev nD) (w : Fin cfg0.W) (hw : w = 5 ∨ w = 6) (t : Fin cfg0.N) (h0 : t.val ≠ 0) (d) :
    (dat0 V c).before w t d = (dat0 V c).after w ⟨t.val - 1, Nat.lt_of_le_of_lt (Nat.sub_le _ _) t.isLt⟩ := by
  have hN : t.val < 128 := lt_of_lt_of_eq t.isLt (show cfg0.N = 128 from N_0)
  rcases hw with rfl | rfl <;>
    exact Dat.before_out_kept _ _ rfl t h0 (Bool.eq_false_iff.mpr fun h => by
      first | have := (flush0_5 _).mp h | have := (flush0_6 _).mp h
      dsimp only at this; omega) (fun i => by first | exact (live0 i).1 | exact (live0 i).2) (fun _ _ => rfl) d

/-- What each accumulator holds after the body, by kind of point. -/
theorem acc0_eq (c : Dev nD) (t : Fin cfg0.N) (d5 d6) :
    (dat0 V c).after 5 t = (if t.val = 0 then out0_5_A (iblk0 V c 0 t) (iblk0 V c 1 t) (iblk0 V c 2 t) (iblk0 V c 3 t) else out0_5_B (iblk0 V c 0 t) (iblk0 V c 1 t) (iblk0 V c 2 t) (iblk0 V c 3 t) ((dat0 V c).before 5 t d5))
    ∧ (dat0 V c).after 6 t = (if t.val = 0 then out0_6_A (iblk0 V c 0 t) (iblk0 V c 1 t) (iblk0 V c 2 t) (iblk0 V c 3 t) else out0_6_B (iblk0 V c 0 t) (iblk0 V c 1 t) (iblk0 V c 2 t) (iblk0 V c 3 t) ((dat0 V c).before 6 t d6)) := by
  obtain ⟨_ | n, hn⟩ := t
  · exact ⟨rfl, rfl⟩
  · have h0 : (⟨n + 1, hn⟩ : Fin cfg0.N).val ≠ 0 := Nat.succ_ne_zero n
    rw [if_neg h0, if_neg h0, before0_acc V c 5 (.inl rfl) _ h0, before0_acc V c 6 (.inr rfl) _ h0]
    dsimp only [dat0, o0_5, o0_6]
    exact ⟨rfl, rfl⟩

/-- The body meets its obligation at every point. -/
theorem body_obligation0 (c : Dev nD) : BodyObligation (dat0 (F := F) V c) (defs₀ (F := F)) Variants.none () Set.univ := fun t => by
  obtain ⟨b0, b1, b2, b3⟩ := before0_in V c t
  rw [bigSep_W0, bigSep_W0]
  dsimp only
  simp only [b0, b1, b2, b3, (live0 _).1, (live0 _).2]
  iintro ⟨HΦ, Ho, ⟨%d0, H0⟩, ⟨%d1, H1⟩, ⟨%d2, H2⟩, ⟨%d3, H3⟩, ⟨%d4, H4⟩, ⟨%d5, H5⟩, ⟨%d6, H6⟩⟩
  rewrite [(acc0_eq V c t d5 d6).1, (acc0_eq V c t d5 d6).2, show (dat0 V c).owesAt () t.succ = (dat0 V c).owesAt () t.castSucc from rfl]
  dsimp only [dat0, o0_4]
  iapply (sound_kernel0 (iblk0 V c 0 t) (iblk0 V c 1 t) (iblk0 V c 2 t) (iblk0 V c 3 t) c Set.univ (grid0.coords t) _ _ _ _ _ _ _ _ _ _ _ _ _ _ (t.val = 0) (hcond0 t) _ _ _)
  isplitl [HΦ Ho]
  · iintro ⟨H4, H5, H6, H0, H1, H2, H3⟩
    isplitl [HΦ]; · iexact HΦ
    isplitl [Ho]; · iexact Ho
    sl_close
  · sl_close

end Cert.KernelIdeal.Hand

end
-- ==== Proof.KI.R1.lean ====
import proofs.«426721_j37477884625195_1_alg».proof.Proof.Gen.KernelIdeal.Launch
import proofs.«426721_j37477884625195_1_alg».proof.Proof.Gen.KernelIdeal.Skeleton
import proofs.«426721_j37477884625195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2048x256 := Rect.unit (s := S2048x256) ![0, 0] S2048x256.size inb_S2048x256_S2048x256_0_0
abbrev r1_b : Rect S256 := Rect.unit (s := S256) ![0] S256.size inb_S256_S256_0
abbrev r1_c : Rect S256x256 := Rect.unit (s := S256x256) ![0, 0] S256x256.size inb_S256x256_S256x256_0_0

section
variable (x0 : Vec F S2048x256 .f32) (x1 x2 x3 x4 : Vec F S256 .f32) (x5 : Vec F S256x256 .f32) (x6 : Vec F S256 .f32)

def y1 : Vec F S2048x256 .f32 := k1_pay3 (View.ld x0 r1_a) (View.ld x2 r1_b) (View.ld x3 r1_b) (View.ld x1 r1_b) (View.ld x4 r1_b) (View.ld x5 r1_c) (View.ld x6 r1_b)
def s1 : Vec F S256 .f32 := k1_pay4 (View.ld x0 r1_a) (View.ld x2 r1_b) (View.ld x3 r1_b) (View.ld x1 r1_b) (View.ld x4 r1_b) (View.ld x5 r1_c) (View.ld x6 r1_b)
def q1 : Vec F S256 .f32 := k1_pay5 (View.ld x0 r1_a) (View.ld x2 r1_b) (View.ld x3 r1_b) (View.ld x1 r1_b) (View.ld x4 r1_b) (View.ld x5 r1_c) (View.ld x6 r1_b)
def out1_7 : Vec F S2048x256 .f32 := View.canon [⟨r1_a, y1 x0 x1 x2 x3 x4 x5 x6⟩]
def out1_8_A : Vec F S256 .f32 := View.canon [⟨r1_b, s1 x0 x1 x2 x3 x4 x5 x6⟩]
def out1_8_B (xo : Vec F S256 .f32) : Vec F S256 .f32 := View.canon [⟨r1_b, k1_pay1 (s1 x0 x1 x2 x3 x4 x5 x6) (View.ld xo r1_b)⟩]
def out1_9_A : Vec F S256 .f32 := View.canon [⟨r1_b, q1 x0 x1 x2 x3 x4 x5 x6⟩]
def out1_9_B (xo : Vec F S256 .f32) : Vec F S256 .f32 := View.canon [⟨r1_b, k1_pay2 (q1 x0 x1 x2 x3 x4 x5 x6) (View.ld xo r1_b)⟩]

def o1_7 (c : Dev nD) (t : Fin cfg1.N) : Vec F S2048x256 .f32 :=
  out1_7 (iblk1 V c 0 t) (iblk1 V c 1 t) (iblk1 V c 2 t) (iblk1 V c 3 t) (iblk1 V c 4 t) (iblk1 V c 5 t) (iblk1 V c 6 t)

def acc1_8 (c : Dev nD) : (n : ℕ) → n < cfg1.N → Vec F S256 .f32
  | 0, hn => out1_8_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn => out1_8_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (acc1_8 c n (Nat.lt_of_succ_lt hn))

def acc1_9 (c : Dev nD) : (n : ℕ) → n < cfg1.N → Vec F S256 .f32
  | 0, hn => out1_9_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn => out1_9_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
      (acc1_9 c n (Nat.lt_of_succ_lt hn))

def o1_8 (c : Dev nD) (t : Fin cfg1.N) : Vec F S256 .f32 := acc1_8 V c t.val t.isLt

def o1_9 (c : Dev nD) (t : Fin cfg1.N) : Vec F S256 .f32 := acc1_9 V c t.val t.isLt

/-- One store through the whole-shape rectangle at zero offsets covers every index. -/
theorem cover1 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond1 : ∀ t : Fin grid1.N, t.val = 0 ∧ k1_cond1 (grid1.coords t) = 1#1 ∧ ¬k1_cond2 (grid1.coords t) = 1#1
    ∨ ¬t.val = 0 ∧ ¬k1_cond1 (grid1.coords t) = 1#1 ∧ k1_cond2 (grid1.coords t) = 1#1 := by decide +kernel

/-- One run of the body serves both kinds of point, `z` saying whether it is the first: a later point adds its sums to what the accumulators held. -/
theorem sound_kernel1 (c : Dev nD) (E : Set ℕ) (i : grid1.Coords) (arg1 : Memref sig .tc .vmem S2048x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S2048x256 .f32) (harg8 : arg8.IsWhole) (arg9 : Memref sig .tc .vmem S256 .f32) (harg9 : arg9.IsWhole) (arg10 : Memref sig .tc .vmem S256 .f32) (harg10 : arg10.IsWhole)
    (z : Prop) [Decidable z]
    (h : z ∧ k1_cond1 i = 1#1 ∧ ¬k1_cond2 i = 1#1 ∨ ¬z ∧ ¬k1_cond1 i = 1#1 ∧ k1_cond2 i = 1#1) (xo8 xo9 : Vec F S256 .f32) (K : PUnit → sProp 𝕄) :
    iprop((iprop(owns (c : Thread nD τ) arg8 fullShare (out1_7 x0 x1 x2 x3 x4 x5 x6) ∗ owns (c : Thread nD τ) arg9 fullShare (if z then out1_8_A x0 x1 x2 x3 x4 x5 x6 else out1_8_B x0 x1 x2 x3 x4 x5 x6 xo8)
            ∗ owns (c : Thread nD τ) arg10 fullShare (if z then out1_9_A x0 x1 x2 x3 x4 x5 x6 else out1_9_B x0 x1 x2 x3 x4 x5 x6 xo9)
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9)
      ⊢ wp frame (wpE (defs₀ (F := F)) Variants.none c none) E (cc1__bn_relu_kernel i arg1 harg1 arg2 harg2 arg3 harg3 arg4 harg4 arg5 harg5 arg6 harg6 arg7 harg7 arg8 harg8 arg9 harg9 arg10 harg10) K := by
  rcases h with ⟨hz, hc1, hc2⟩ | ⟨hz, hc1, hc2⟩ <;> simp only [hz, ↓reduceIte] <;>
  · simp only [cc1__bn_relu_kernel_eq_skeleton]; unfold cc1__bn_relu_kernel_skel
    simp only [k1_part1_eq_skeleton]
    unfold owns
    iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩⟩
    subst hf0 hf1 hf2 hf3 hf4 hf5 hf6 hf8 hf9
    sl_exec (disch := first | exact hc1 | exact hc2)
    sl_step
    iapply Hk
    isplitl [H7]; iexists _; isplitr; swap; iexact H7; rotate_left
    isplitl [H8]; iexists _; isplitr; swap; iexact H8; rotate_left
    isplitl [H9]; iexists _; isplitr; swap; iexact H9; rotate_left
    sl_close
    all_goals ipureintro; exact View.read_writes_eq_canon _ _ _ (cover1 (by decide) _ _)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => o1_7 V c t
    | ⟨8, _⟩ => o1_8 V c t
    | ⟨9, _⟩ => o1_9 V c t
  Φ _ := Pipeline.ΦA spec1 c
  q _ := fullShare
  owed _ := 0

theorem A_eq1 (c : Dev nD) (w : Fin cfg1.W) : (dat1 V c).A w = V c (Pipeline.arrRef spec1 w) := rfl

/-- What the body reads at a point: each input's block of its array, -/
theorem before1_in (c : Dev nD) (t : Fin cfg1.N) : (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem live1 : ∀ i : grid1.Coords, idle1 8 i = false ∧ idle1 9 i = false := by decide +kernel

/-- and, after the first point, each accumulator as the point before left it. -/
theorem before1_acc (c : Dev nD) (w : Fin cfg1.W) (hw : w = 8 ∨ w = 9) (t : Fin cfg1.N) (h0 : t.val ≠ 0) (d) :
    (dat1 V c).before w t d = (dat1 V c).after w ⟨t.val - 1, Nat.lt_of_le_of_lt (Nat.sub_le _ _) t.isLt⟩ := by
  have hN : t.val < 128 := lt_of_lt_of_eq t.isLt (show cfg1.N = 128 from N_1)
  rcases hw with rfl | rfl <;>
    exact Dat.before_out_kept _ _ rfl t h0 (Bool.eq_false_iff.mpr fun h => by
      first | have := (flush1_8 _).mp h | have := (flush1_9 _).mp h
      dsimp only at this; omega) (fun i => by first | exact (live1 i).1 | exact (live1 i).2) (fun _ _ => rfl) d

/-- What each accumulator holds after the body, by kind of point. -/
theorem acc1_eq (c : Dev nD) (t : Fin cfg1.N) (d8 d9) :
    (dat1 V c).after 8 t = (if t.val = 0 then out1_8_A (iblk1 V c 0 t) (iblk1 V c 1 t) (iblk1 V c 2 t) (iblk1 V c 3 t) (iblk1 V c 4 t) (iblk1 V c 5 t) (iblk1 V c 6 t) else out1_8_B (iblk1 V c 0 t) (iblk1 V c 1 t) (iblk1 V c 2 t) (iblk1 V c 3 t) (iblk1 V c 4 t) (iblk1 V c 5 t) (iblk1 V c 6 t) ((dat1 V c).before 8 t d8))
    ∧ (dat1 V c).after 9 t = (if t.val = 0 then out1_9_A (iblk1 V c 0 t) (iblk1 V c 1 t) (iblk1 V c 2 t) (iblk1 V c 3 t) (iblk1 V c 4 t) (iblk1 V c 5 t) (iblk1 V c 6 t) else out1_9_B (iblk1 V c 0 t) (iblk1 V c 1 t) (iblk1 V c 2 t) (iblk1 V c 3 t) (iblk1 V c 4 t) (iblk1 V c 5 t) (iblk1 V c 6 t) ((dat1 V c).before 9 t d9)) := by
  obtain ⟨_ | n, hn⟩ := t
  · exact ⟨rfl, rfl⟩
  · have h0 : (⟨n + 1, hn⟩ : Fin cfg1.N).val ≠ 0 := Nat.succ_ne_zero n
    rw [if_neg h0, if_neg h0, before1_acc V c 8 (.inl rfl) _ h0, before1_acc V c 9 (.inr rfl) _ h0]
    dsimp only [dat1, o1_8, o1_9]
    exact ⟨rfl, rfl⟩

/-- The body meets its obligation at every point. -/
theorem body_obligation1 (c : Dev nD) : BodyObligation (dat1 (F := F) V c) (defs₀ (F := F)) Variants.none () Set.univ := fun t => by
  obtain ⟨b0, b1, b2, b3, b4, b5, b6⟩ := before1_in V c t
  rw [bigSep_W1, bigSep_W1]
  dsimp only
  simp only [b0, b1, b2, b3, b4, b5, b6, (live1 _).1, (live1 _).2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rewrite [(acc1_eq V c t d8 d9).1, (acc1_eq V c t d8 d9).2, show (dat1 V c).owesAt () t.succ = (dat1 V c).owesAt () t.castSucc from rfl]
  dsimp only [dat1, o1_7]
  iapply (sound_kernel1 (iblk1 V c 0 t) (iblk1 V c 1 t) (iblk1 V c 2 t) (iblk1 V c 3 t) (iblk1 V c 4 t) (iblk1 V c 5 t) (iblk1 V c 6 t) c Set.univ (grid1.coords t) _ _ _ _ _ _ _ _ _ _ _ _ _ _ _ _ _ _ _ _ (t.val = 0) (hcond1 t) _ _ _)
  isplitl [HΦ Ho]
  · iintro ⟨H7, H8, H9, H0, H1, H2, H3, H4, H5, H6⟩
    isplitl [HΦ]; · iexact HΦ
    isplitl [Ho]; · iexact Ho
    sl_close
  · sl_close

end Cert.KernelIdeal.Hand

end
-- ==== Proof.KI.R2.lean ====
import proofs.«426721_j37477884625195_1_alg».proof.Proof.Gen.KernelIdeal.Launch
import proofs.«426721_j37477884625195_1_alg».proof.Proof.Gen.KernelIdeal.Skeleton
import proofs.«426721_j37477884625195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (x0 : Vec F S2048x256 .f32) (x1 x2 x3 x4 : Vec F S256 .f32) (x5 : Vec F S256x128 .f32) (x6 : Vec F S128 .f32)

def rows2 : Vec F S2048x128 .f32 := k2_pay3 x0 x2 x3 x1 x4 x5 x6
def sums2 : Vec F S128 .f32 := k2_pay4 x0 x2 x3 x1 x4 x5 x6
def sqs2 : Vec F S128 .f32 := k2_pay5 x0 x2 x3 x1 x4 x5 x6

def acc2_8 (c : Dev nD) : (n : ℕ) → n < cfg2.N → Vec F S128 .f32
  | 0, hn => sums2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn => k2_pay1 (sums2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)) (acc2_8 c n (Nat.lt_of_succ_lt hn))

def acc2_9 (c : Dev nD) : (n : ℕ) → n < cfg2.N → Vec F S128 .f32
  | 0, hn => sqs2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn => k2_pay2 (sqs2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)) (acc2_9 c n (Nat.lt_of_succ_lt hn))

def o2_7 (c : Dev nD) (t : Fin cfg2.N) : Vec F S2048x128 .f32 :=
  rows2 (iblk2 V c 0 t) (iblk2 V c 1 t) (iblk2 V c 2 t) (iblk2 V c 3 t) (iblk2 V c 4 t) (iblk2 V c 5 t) (iblk2 V c 6 t)

def o2_8 (c : Dev nD) (t : Fin cfg2.N) : Vec F S128 .f32 :=
  acc2_8 V c t.val t.isLt

def o2_9 (c : Dev nD) (t : Fin cfg2.N) : Vec F S128 .f32 :=
  acc2_9 V c t.val t.isLt

theorem offs2_1 : (![0] : Fin 1 → Nat) = fun _ => 0 := funext fun a => by fin_cases a <;> rfl
theorem offs2_2 : (![0, 0] : Fin 2 → Nat) = fun _ => 0 := funext fun a => by fin_cases a <;> rfl

/-- One store through the whole-shape rectangle at zero offsets covers every index. -/
theorem cover2 {S : Shape} {off : Fin S.rank → ℕ} (h : ∀ a, off a = 0) (inb : ∀ a, off a + S.size a ≤ S.size a) (p : Vec F S .f32)
    (y : S.Idx) : ∃ pc ∈ ([⟨Rect.unit off S.size inb, p⟩] : List (View.Piece (Elt F) S .f32)), y ∈ pc.1.set :=
  ⟨_, List.mem_singleton_self _, View.mem_set_unit_zero (funext h) inb y⟩

/-- The first point takes the first conditional only, every other point the second only. -/
theorem hcond2 : ∀ t : Fin grid2.N, t.val = 0 ∧ k2_cond1 (grid2.coords t) = 1#1 ∧ ¬k2_cond2 (grid2.coords t) = 1#1
    ∨ ¬t.val = 0 ∧ ¬k2_cond1 (grid2.coords t) = 1#1 ∧ k2_cond2 (grid2.coords t) = 1#1 := by decide +kernel

/-- One run of the body serves both kinds of point, `z` saying whether it is the first: a later point adds its sums to what the accumulators held. -/
theorem sound_kernel2 (c : Dev nD) (E : Set ℕ) (i : grid2.Coords) (arg1 : Memref sig .tc .vmem S2048x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S2048x128 .f32) (harg8 : arg8.IsWhole) (arg9 : Memref sig .tc .vmem S128 .f32) (harg9 : arg9.IsWhole) (arg10 : Memref sig .tc .vmem S128 .f32) (harg10 : arg10.IsWhole)
    (z : Prop) [Decidable z]
    (h : z ∧ k2_cond1 i = 1#1 ∧ ¬k2_cond2 i = 1#1 ∨ ¬z ∧ ¬k2_cond1 i = 1#1 ∧ k2_cond2 i = 1#1) (a8 a9 : Vec F S128 .f32) (K : PUnit → sProp 𝕄) :
    iprop((iprop(owns (c : Thread nD τ) arg8 fullShare (rows2 x0 x1 x2 x3 x4 x5 x6) ∗ owns (c : Thread nD τ) arg9 fullShare (if z then sums2 x0 x1 x2 x3 x4 x5 x6 else k2_pay1 (sums2 x0 x1 x2 x3 x4 x5 x6) a8)
            ∗ owns (c : Thread nD τ) arg10 fullShare (if z then sqs2 x0 x1 x2 x3 x4 x5 x6 else k2_pay2 (sqs2 x0 x1 x2 x3 x4 x5 x6) a9)
            ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6) -∗ K ⟨⟩)
        ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare a8 ∗ owns (c : Thread nD τ) arg10 fullShare a9)
      ⊢ wp frame (wpE (defs₀ (F := F)) Variants.none c none) E (cc2__bn_relu_kernel i arg1 harg1 arg2 harg2 arg3 harg3 arg4 harg4 arg5 harg5 arg6 harg6 arg7 harg7 arg8 harg8 arg9 harg9 arg10 harg10) K := by
  rcases h with ⟨hz, hc1, hc2⟩ | ⟨hz, hc1, hc2⟩ <;> simp only [hz, ↓reduceIte] <;>
  · simp only [cc2__bn_relu_kernel_eq_skeleton]; unfold cc2__bn_relu_kernel_skel
    simp only [k2_part1_eq_skeleton]
    unfold owns
    iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩⟩
    subst hf0 hf1 hf2 hf3 hf4 hf5 hf6 hf8 hf9
    sl_exec (disch := first | exact hc1 | exact hc2)
    sl_step
    iapply Hk
    isplitl [H7]; iexists _; isplitr; swap; iexact H7; rotate_left
    isplitl [H8]; iexists _; isplitr; swap; iexact H8; rotate_left
    isplitl [H9]; iexists _; isplitr; swap; iexact H9; rotate_left
    sl_close
    all_goals
      ipureintro
      refine (View.read_writes_eq_canon _ _ _ (cover2 (by decide) _ _)).trans ?_
      sl_unfold_words
      simp only [rows2, sums2, sqs2, View.canon_unit_zero (S := S2048x128) offs2_2, View.canon_unit_zero (S := S128) offs2_1, View.readAt_eq_ld,
        View.ld_unit_zero (S := S2048x256) offs2_2, View.ld_unit_zero (S := S256x128) offs2_2, View.ld_unit_zero (S := S256) offs2_1,
        View.ld_unit_zero (S := S128) offs2_1]

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => o2_7 V c t
    | ⟨8, _⟩ => o2_8 V c t
    | ⟨9, _⟩ => o2_9 V c t
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t = o2_7 V c t := rfl
theorem after2_8 (c : Dev nD) (t : Fin cfg2.N) : (dat2 V c).after 8 t = o2_8 V c t := rfl
theorem after2_9 (c : Dev nD) (t : Fin cfg2.N) : (dat2 V c).after 9 t = o2_9 V c t := rfl

/-- What the body reads at a point: each input's block of its array, -/
theorem before2_in (c : Dev nD) (t : Fin cfg2.N) : (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;>
    exact fun d => ((dat2 V c).before_in_eq_fetched _ rfl (fun _ => rfl) (fun _ _ _ => rfl) (fun _ => rfl) t d).trans rfl

theorem live2 : ∀ i : grid2.Coords, idle2 8 i = false ∧ idle2 9 i = false := by decide +kernel

/-- and, after the first point, each accumulator as the point before left it. -/
theorem before2_acc (c : Dev nD) (w : Fin cfg2.W) (hw : w = 8 ∨ w = 9) (t : Fin cfg2.N) (h0 : t.val ≠ 0) (d) :
    (dat2 V c).before w t d = (dat2 V c).after w ⟨t.val - 1, Nat.lt_of_le_of_lt (Nat.sub_le _ _) t.isLt⟩ := by
  have hN : t.val < 128 := lt_of_lt_of_eq t.isLt (show cfg2.N = 128 from N_2)
  rcases hw with rfl | rfl <;>
    exact Dat.before_out_kept _ _ rfl t h0 (Bool.eq_false_iff.mpr fun h => by
      first | have := (flush2_8 _).mp h | have := (flush2_9 _).mp h
      dsimp only at this; omega) (fun i => by first | exact (live2 i).1 | exact (live2 i).2) (fun _ _ => rfl) d

/-- What each accumulator holds after the body, by kind of point. -/
theorem acc2_eq (c : Dev nD) (t : Fin cfg2.N) (d8 d9) :
    (dat2 V c).after 8 t = (if t.val = 0 then sums2 (iblk2 V c 0 t) (iblk2 V c 1 t) (iblk2 V c 2 t) (iblk2 V c 3 t) (iblk2 V c 4 t) (iblk2 V c 5 t) (iblk2 V c 6 t) else k2_pay1 (sums2 (iblk2 V c 0 t) (iblk2 V c 1 t) (iblk2 V c 2 t) (iblk2 V c 3 t) (iblk2 V c 4 t) (iblk2 V c 5 t) (iblk2 V c 6 t)) ((dat2 V c).before 8 t d8))
    ∧ (dat2 V c).after 9 t = (if t.val = 0 then sqs2 (iblk2 V c 0 t) (iblk2 V c 1 t) (iblk2 V c 2 t) (iblk2 V c 3 t) (iblk2 V c 4 t) (iblk2 V c 5 t) (iblk2 V c 6 t) else k2_pay2 (sqs2 (iblk2 V c 0 t) (iblk2 V c 1 t) (iblk2 V c 2 t) (iblk2 V c 3 t) (iblk2 V c 4 t) (iblk2 V c 5 t) (iblk2 V c 6 t)) ((dat2 V c).before 9 t d9)) := by
  obtain ⟨_ | n, hn⟩ := t
  · exact ⟨rfl, rfl⟩
  · have h0 : (⟨n + 1, hn⟩ : Fin cfg2.N).val ≠ 0 := Nat.succ_ne_zero n
    rw [if_neg h0, if_neg h0, before2_acc V c 8 (.inl rfl) _ h0, before2_acc V c 9 (.inr rfl) _ h0]
    dsimp only [dat2, o2_8, o2_9]
    exact ⟨rfl, rfl⟩

/-- The body meets its obligation at every point. -/
theorem body_obligation2 (c : Dev nD) : BodyObligation (dat2 (F := F) V c) (defs₀ (F := F)) Variants.none () Set.univ := fun t => by
  obtain ⟨b0, b1, b2, b3, b4, b5, b6⟩ := before2_in V c t
  rw [bigSep_W2, bigSep_W2]
  dsimp only
  simp only [b0, b1, b2, b3, b4, b5, b6, (live2 _).1, (live2 _).2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rewrite [(acc2_eq V c t d8 d9).1, (acc2_eq V c t d8 d9).2, show (dat2 V c).owesAt () t.succ = (dat2 V c).owesAt () t.castSucc from rfl]
  dsimp only [dat2, o2_7]
  iapply (sound_kernel2 (iblk2 V c 0 t) (iblk2 V c 1 t) (iblk2 V c 2 t) (iblk2 V c 3 t) (iblk2 V c 4 t) (iblk2 V c 5 t) (iblk2 V c 6 t) c Set.univ (grid2.coords t) _ _ _ _ _ _ _ _ _ _ _ _ _ _ _ _ _ _ _ _ (t.val = 0) (hcond2 t) _ _ _)
  isplitl [HΦ Ho]
  · iintro ⟨H7, H8, H9, H0, H1, H2, H3, H4, H5, H6⟩
    isplitl [HΦ]; · iexact HΦ
    isplitl [Ho]; · iexact Ho
    sl_close
  · sl_close

end Cert.KernelIdeal.Hand

end
-- ==== Proof.KI.R3.lean ====
import proofs.«426721_j37477884625195_1_alg».proof.Proof.Gen.KernelIdeal.Launch
import proofs.«426721_j37477884625195_1_alg».proof.Proof.Gen.KernelIdeal.Skeleton
import proofs.«426721_j37477884625195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S2048x128 := Rect.unit (s := S2048x128) ![0, 0] S2048x128.size inb_S2048x128_S2048x128_0_0
abbrev rB3 : Rect S128 := Rect.unit (s := S128) ![0] S128.size inb_S128_S128_0
abbrev rC3 : Rect S128x1 := Rect.unit (s := S128x1) ![0, 0] S128x1.size inb_S128x1_S128x1_0_0
abbrev rD3 : Rect S1 := Rect.unit (s := S1) ![0] S1.size inb_S1_S1_0
abbrev rE3 : Rect S2048x1 := Rect.unit (s := S2048x1) ![0, 0] S2048x1.size inb_S2048x1_S2048x1_0_0

def out3_7 (x0 : Vec F S2048x128 .f32) (x1 x2 x3 x4 : Vec F S128 .f32) (x5 : Vec F S128x1 .f32) (x6 : Vec F S1 .f32) :
    Vec F S2048x1 .f32 :=
  View.canon [⟨rE3, k3_pay1 (View.ld x0 rA3) (View.ld x2 rB3) (View.ld x3 rB3) (View.ld x1 rB3) (View.ld x4 rB3)
    (View.ld x5 rC3) (View.ld x6 rD3)⟩]

def o3_7 (c : Dev nD) (t : Fin cfg3.N) : Vec F S2048x1 .f32 :=
  out3_7 (iblk3 V c 0 t) (iblk3 V c 1 t) (iblk3 V c 2 t) (iblk3 V c 3 t) (iblk3 V c 4 t) (iblk3 V c 5 t) (iblk3 V c 6 t)

section
variable (c : Dev nD) (a0 : Memref sig .tc .vmem S2048x128 .f32) (a1 a2 a3 a4 : Memref sig .tc .vmem S128 .f32)
  (a5 : Memref sig .tc .vmem S128x1 .f32) (a6 : Memref sig .tc .vmem S1 .f32) (a7 : Memref sig .tc .vmem S2048x1 .f32)
  (x0 : Vec F S2048x128 .f32) (x1 x2 x3 x4 : Vec F S128 .f32) (x5 : Vec F S128x1 .f32) (x6 : Vec F S1 .f32)

/-- The seven input buffers, each owned whole at its contents. -/
def ins3 : sProp 𝕄 :=
  iprop(owns (c : Thread nD τ) a0 fullShare x0 ∗ owns (c : Thread nD τ) a1 fullShare x1 ∗ owns (c : Thread nD τ) a2 fullShare x2 ∗ owns (c : Thread nD τ) a3 fullShare x3
    ∗ owns (c : Thread nD τ) a4 fullShare x4 ∗ owns (c : Thread nD τ) a5 fullShare x5 ∗ owns (c : Thread nD τ) a6 fullShare x6)

set_option maxHeartbeats 4000000 in
/-- On whole buffers the body keeps the inputs and leaves in the output its one store, computed from the inputs. -/
theorem sound_kernel3 (E : Set ℕ) (i : grid3.Coords) (ha0 : a0.IsWhole) (ha1 : a1.IsWhole) (ha2 : a2.IsWhole) (ha3 : a3.IsWhole)
    (ha4 : a4.IsWhole) (ha5 : a5.IsWhole) (ha6 : a6.IsWhole) (ha7 : a7.IsWhole) (K : PUnit → sProp 𝕄) :
    iprop(ins3 c a0 a1 a2 a3 a4 a5 a6 x0 x1 x2 x3 x4 x5 x6 ∗ (∃ d, owns (c : Thread nD τ) a7 fullShare d)
        ∗ (iprop(owns (c : Thread nD τ) a7 fullShare (out3_7 x0 x1 x2 x3 x4 x5 x6) ∗ ins3 c a0 a1 a2 a3 a4 a5 a6 x0 x1 x2 x3 x4 x5 x6) -∗ K ⟨⟩))
      ⊢ wp frame (wpE (defs₀ (F := F)) Variants.none c none) E
          (cc3__bn_out_kernel i a0 ha0 a1 ha1 a2 ha2 a3 ha3 a4 ha4 a5 ha5 a6 ha6 a7 ha7) K := by
  simp only [cc3__bn_out_kernel_eq_skeleton]; unfold cc3__bn_out_kernel_skel
  unfold ins3 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, Hk⟩
  subst hf0 hf1 hf2 hf3 hf4 hf5 hf6
  sl_exec
  sl_step
  iapply Hk
  isplitl [H7]
  · iexists _; isplitr
    swap; · iexact H7
    ipureintro
    exact View.read_writes_eq_canon _ _ _ (View.cover_of_tiled _ S2048x1.size (by rfl))
  sl_close

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => o3_7 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = o3_7 V c t := by dsimp only [dat3]

/-- What the body reads at a point is each input's block of its array. -/
theorem before3 (c : Dev nD) (t : Fin cfg3.N) : ∀ w : Fin cfg3.W, (cfg3.win w).isOut = false → ∀ d, (dat3 V c).before w t d = (dat3 V c).after w t
  | ⟨0, _⟩, h, d | ⟨1, _⟩, h, d | ⟨2, _⟩, h, d | ⟨3, _⟩, h, d | ⟨4, _⟩, h, d | ⟨5, _⟩, h, d | ⟨6, _⟩, h, d =>
    ((dat3 V c).before_in_eq_fetched _ h (fun _ => rfl) (fun _ _ _ => rfl) (fun _ => rfl) t d).trans rfl
  | ⟨7, _⟩, h, _ => nomatch h

set_option maxHeartbeats 1000000 in
/-- At every point the body reads the inputs' blocks, so its triple applies. -/
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  dsimp only
  rw [show (dat3 V c).Φ t.succ = (dat3 V c).Φ t.castSucc from rfl,
    show (dat3 V c).owesAt () t.succ = (dat3 V c).owesAt () t.castSucc from rfl]
  simp only [before3 V c t 0 rfl, before3 V c t 1 rfl, before3 V c t 2 rfl, before3 V c t 3 rfl, before3 V c t 4 rfl,
    before3 V c t 5 rfl, before3 V c t 6 rfl]
  dsimp only [dat3, o3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c _ _ _ _ _ _ _ _ (iblk3 V c 0 t) (iblk3 V c 1 t) (iblk3 V c 2 t) (iblk3 V c 3 t) (iblk3 V c 4 t) (iblk3 V c 5 t) (iblk3 V c 6 t) Set.univ _ _ _ _ _ _ _ _ _ _)
  unfold ins3
  iframe H0 H1 H2 H3 H4 H5 H6
  isplitl [H7]; · iexists _; iexact H7
  iintro ⟨H7, H0, H1, H2, H3, H4, H5, H6⟩
  iframe

end Cert.KernelIdeal.Hand

end
-- ==== Proof.KI.Run.lean ====
import proofs.«426721_j37477884625195_1_alg».proof.Proof.Gen.KernelIdeal.Launch
import proofs.«426721_j37477884625195_1_alg».proof.Proof.Gen.KernelIdeal.Regions
import proofs.«426721_j37477884625195_1_alg».proof.Proof.KI.R0
import proofs.«426721_j37477884625195_1_alg».proof.Proof.KI.R1
import proofs.«426721_j37477884625195_1_alg».proof.Proof.KI.R2
import proofs.«426721_j37477884625195_1_alg».proof.Proof.KI.R3
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Overwriting the arrays by their last contents changes no buffer that is none of them, nor an array whose last contents are its first. -/
theorem keepH {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (b : Ref sig .tc)
    (hb : ∀ w, Pipeline.arrRef cfg.spec w = b → (cfg.win w).isOut = false) :
    Pipeline.withArrays cfg.spec c V (dat.arrAt · cfg.N) (Proc.devRef .tc b) = V (Proc.devRef .tc b) := by
  by_cases h : ∃ w, Pipeline.arrRef cfg.spec w = b
  · obtain ⟨w, rfl⟩ := h
    exact (Pipeline.withArrays_arr _ hinj c V _ w).trans ((dat.arrAt_in w (hb w rfl) _).trans (hA w))
  · exact Pipeline.withArrays_of_ne _ c V _ b fun w e => h ⟨w, e⟩

abbrev We0 : Dev nD → Valuation τ sig (Elt F) := fun c b => (s₀ m ρ).mem ((c : Dev nD), b)
abbrev Ve0 : (c : Dev nD) → (b : Ref sig .tc) → Buf (Elt F) ((c : Thread nD τ).loc b) := fun c b => We0 m ρ c b
def Wx0 (c : Dev nD) : Valuation τ sig (Elt F) :=
  Pipeline.withArrays spec0 c (We0 m ρ c) fun w => (dat0 (Ve0 m ρ) c).arrAt w cfg0.N
theorem Wx0_arr (c : Dev nD) (w : Fin cfg0.W) :
    Wx0 m ρ c (Proc.devRef .tc (Pipeline.arrRef spec0 w)) = (dat0 (Ve0 m ρ) c).arrAt w cfg0.N :=
  Pipeline.withArrays_arr spec0 launch0.win.arr_inj c _ _ w
theorem Wx0_keep (c : Dev nD) (b : Ref sig .tc) (hb : ∀ w, Pipeline.arrRef spec0 w = b → (cfg0.win w).isOut = false) :
    Wx0 m ρ c (Proc.devRef .tc b) = We0 m ρ c (Proc.devRef .tc b) :=
  keepH (dat0 (Ve0 m ρ) c) launch0.win.arr_inj _ (A_eq0 _ c) b hb

abbrev We1 : Dev nD → Valuation τ sig (Elt F) := fun c => StableHlo.after hostOps1 (Wx0 m ρ c)
abbrev Ve1 : (c : Dev nD) → (b : Ref sig .tc) → Buf (Elt F) ((c : Thread nD τ).loc b) := fun c b => We1 m ρ c b
theorem We1_keep (c : Dev nD) (b : Ref sig .tc) (hb : b ∉ hostOps1_W) :
    We1 m ρ c (Proc.devRef .tc b) = Wx0 m ρ c (Proc.devRef .tc b) :=
  StableHlo.after_of_writes_sub hostOps1 _ hostOps1_writes hb
def Wx1 (c : Dev nD) : Valuation τ sig (Elt F) :=
  Pipeline.withArrays spec1 c (We1 m ρ c) fun w => (dat1 (Ve1 m ρ) c).arrAt w cfg1.N
theorem Wx1_arr (c : Dev nD) (w : Fin cfg1.W) :
    Wx1 m ρ c (Proc.devRef .tc (Pipeline.arrRef spec1 w)) = (dat1 (Ve1 m ρ) c).arrAt w cfg1.N :=
  Pipeline.withArrays_arr spec1 launch1.win.arr_inj c _ _ w
theorem Wx1_keep (c : Dev nD) (b : Ref sig .tc) (hb : ∀ w, Pipeline.arrRef spec1 w = b → (cfg1.win w).isOut = false) :
    Wx1 m ρ c (Proc.devRef .tc b) = We1 m ρ c (Proc.devRef .tc b) :=
  keepH (dat1 (Ve1 m ρ) c) launch1.win.arr_inj _ (A_eq1 _ c) b hb

abbrev We2 : Dev nD → Valuation τ sig (Elt F) := fun c => StableHlo.after hostOps2 (Wx1 m ρ c)
abbrev Ve2 : (c : Dev nD) → (b : Ref sig .tc) → Buf (Elt F) ((c : Thread nD τ).loc b) := fun c b => We2 m ρ c b
theorem We2_keep (c : Dev nD) (b : Ref sig .tc) (hb : b ∉ hostOps2_W) :
    We2 m ρ c (Proc.devRef .tc b) = Wx1 m ρ c (Proc.devRef .tc b) :=
  StableHlo.after_of_writes_sub hostOps2 _ hostOps2_writes hb
def Wx2 (c : Dev nD) : Valuation τ sig (Elt F) :=
  Pipeline.withArrays spec2 c (We2 m ρ c) fun w => (dat2 (Ve2 m ρ) c).arrAt w cfg2.N
theorem Wx2_arr (c : Dev nD) (w : Fin cfg2.W) :
    Wx2 m ρ c (Proc.devRef .tc (Pipeline.arrRef spec2 w)) = (dat2 (Ve2 m ρ) c).arrAt w cfg2.N :=
  Pipeline.withArrays_arr spec2 launch2.win.arr_inj c _ _ w
theorem Wx2_keep (c : Dev nD) (b : Ref sig .tc) (hb : ∀ w, Pipeline.arrRef spec2 w = b → (cfg2.win w).isOut = false) :
    Wx2 m ρ c (Proc.devRef .tc b) = We2 m ρ c (Proc.devRef .tc b) :=
  keepH (dat2 (Ve2 m ρ) c) launch2.win.arr_inj _ (A_eq2 _ c) b hb

abbrev We3 : Dev nD → Valuation τ sig (Elt F) := fun c => StableHlo.after hostOps3 (Wx2 m ρ c)
abbrev Ve3 : (c : Dev nD) → (b : Ref sig .tc) → Buf (Elt F) ((c : Thread nD τ).loc b) := fun c b => We3 m ρ c b
theorem We3_keep (c : Dev nD) (b : Ref sig .tc) (hb : b ∉ hostOps3_W) :
    We3 m ρ c (Proc.devRef .tc b) = Wx2 m ρ c (Proc.devRef .tc b) :=
  StableHlo.after_of_writes_sub hostOps3 _ hostOps3_writes hb
def Wx3 (c : Dev nD) : Valuation τ sig (Elt F) :=
  Pipeline.withArrays spec3 c (We3 m ρ c) fun w => (dat3 (Ve3 m ρ) c).arrAt w cfg3.N
theorem Wx3_arr (c : Dev nD) (w : Fin cfg3.W) :
    Wx3 m ρ c (Proc.devRef .tc (Pipeline.arrRef spec3 w)) = (dat3 (Ve3 m ρ) c).arrAt w cfg3.N :=
  Pipeline.withArrays_arr spec3 launch3.win.arr_inj c _ _ w
theorem Wx3_keep (c : Dev nD) (b : Ref sig .tc) (hb : ∀ w, Pipeline.arrRef spec3 w = b → (cfg3.win w).isOut = false) :
    Wx3 m ρ c (Proc.devRef .tc b) = We3 m ρ c (Proc.devRef .tc b) :=
  keepH (dat3 (Ve3 m ρ) c) launch3.win.arr_inj _ (A_eq3 _ c) b hb

abbrev argsH : List (Ref sig .tc) := [main_arg0, main_arg1, main_arg2, main_arg3, main_arg4, main_arg5, main_arg6, main_arg7, main_arg8, main_arg9, main_arg10, main_arg11, main_arg12, main_arg13, main_arg14, main_arg15]

/-- An argument array is no region's output, and no host operation writes it. -/
theorem argsH_keep : ∀ b ∈ argsH, ¬ (Proc.devRef .tc b : DevRef τ sig).isScoped
    ∧ (∀ w, Pipeline.arrRef spec0 w = b → (cfg0.win w).isOut = false) ∧ b ∉ hostOps1_W
    ∧ (∀ w, Pipeline.arrRef spec1 w = b → (cfg1.win w).isOut = false) ∧ b ∉ hostOps2_W
    ∧ (∀ w, Pipeline.arrRef spec2 w = b → (cfg2.win w).isOut = false) ∧ b ∉ hostOps3_W
    ∧ (∀ w, Pipeline.arrRef spec3 w = b → (cfg3.win w).isOut = false) := by decide

theorem Wx3_arg (c : Dev nD) (b : Ref sig .tc) (hb : b ∈ argsH) :
    Wx3 m ρ c (Proc.devRef .tc b) = m ((c : Thread nD τ).loc b) :=
  have ⟨_, h0, h1, h1x, h2, h2x, h3, h3x⟩ := argsH_keep b hb
  (Wx3_keep m ρ c b h3x).trans <| (We3_keep m ρ c b h3).trans <| (Wx2_keep m ρ c b h2x).trans <|
  (We2_keep m ρ c b h2).trans <| (Wx1_keep m ρ c b h1x).trans <| (We1_keep m ρ c b h1).trans <|
  (Wx0_keep m ρ c b h0).trans rfl

def pdatsH : (p : Fin 4) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve3 m ρ) c
abbrev 𝒱H : Variants := Variants.none
abbrev LH : GSem nD τ sig → Finset Unit := fun _ => ∅
abbrev lvH : GSem nD τ sig → Unit → ℕ := fun _ _ => 0
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wx3 m ρ c) ∗ ∃ r, prngReg c r)

/-- Region `p`: entered with the buffers at `We`, left with its arrays at their last contents and the rest as entered. -/
def regH (p : Fin 4) (lf : Pipeline.LaunchFacts (nD := nD) (τ := τ) cfgs p) (We : Dev nD → Valuation τ sig (Elt F))
    (hb : ∀ c, BodyObligation (pdatsH m ρ p c) (defs₀ (F := F)) Variants.none () Set.univ)
    (howed : ∀ c t, (pdatsH m ρ p c).owed t = 0 := by exact fun _ _ => rfl)
    (hq : ∀ c w, (pdatsH m ρ p c).q w = fullShare := by exact fun _ _ => rfl)
    (hA : ∀ c w, (pdatsH m ρ p c).A w = We c (Proc.devRef .tc (Pipeline.arrRef (cfgs p).spec w)) := by exact fun _ _ => rfl)
    (hΦ : ∀ c i, (pdatsH m ρ p c).Φ i = Pipeline.ΦA (cfgs p).spec c := by exact fun _ _ => rfl)
    (hrec : ∀ c x, x ∈ (pdatsH m ρ p c).recorded 0 := by exact fun _ _ => trivial) :
    Pipeline.RegionSeg (pcfgs (F := F)) adm (pdatsH m ρ) () defs₀ 𝒱H LH lvH p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ LH lvH p howed
  pre c := iprop(StableHlo.held (c : Thread nD τ) (Pipeline.ucRefs τ sig) (We c) ∗ RH c)
  post c := iprop(StableHlo.held (c : Thread nD τ) (Pipeline.ucRefs τ sig)
    (Pipeline.withArrays (cfgs p).spec c (We c) fun w => (pdatsH m ρ p c).arrAt w (cfgs p).N) ∗ RH c)
  X c := iprop(∃ r, prngReg c r)
  Y c := iprop(∃ r, prngReg c r)
  Z c := Pipeline.unscopedRest (Ix := Unit) (Name := ℕ) (U := UR sig nD τ) (Lvl := ℕ) (cfgs p).spec c fun b => We c b
  hentry c := by
    rw [Pipeline.ownSems0_none]
    have hsplit := Pipeline.arrays_of_unscopedBufs (p := p) (pcfgs (F := F)) adm (pdatsH m ρ) lf.win lf.arr_whole c
      ((pdatsH m ρ p c).share_full (hq c)) (fun b => We c b) (hA c)
    rw [Pipeline.unscopedBufs_held] at hsplit
    iintro ⟨⟨Hub, Hp, HO⟩, -, -⟩
    ihave H := hsplit $$ Hub
    icases H with ⟨Ha, Hrest⟩
    imodintro; iframe
    isplitr; · unfold Pipeline.prefHeld; rw [show (Finset.univ : Finset (Fin 0)) = ∅ from rfl, BI.bigSep_empty]; iempintro
    unfold Pipeline.Dat.owesAt Pipeline.owesWithin; rw [howed]
    icases HO with ⟨%W, HO⟩; iexists W; isplitr; · ipureintro; exact fun x _ => Or.inl (hrec c x)
    iexact HO
  hin c := by
    rw [hΦ]; unfold Pipeline.ΦA
    iintro ⟨Hp, -, Hr⟩; iframe
  hout c := by
    rw [Pipeline.ownSems0_none, hΦ]; unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      lf.win lf.arr_whole c (pdatsH m ρ) ((pdatsH m ρ p c).share_full (hq c)) (fun b => We c b)
      (fun b => Pipeline.withArrays (cfgs p).spec c (We c) (fun w => (pdatsH m ρ p c).arrAt w (cfgs p).N) b)
      ((pdatsH m ρ p c).arrAt · (cfgs p).N)
      (fun w => (Pipeline.withArrays_arr (cfgs p).spec lf.win.arr_inj c (We c) ((pdatsH m ρ p c).arrAt · (cfgs p).N) w).symm)
      fun b hb => Pipeline.withArrays_of_ne (cfgs p).spec c (We c) ((pdatsH m ρ p c).arrAt · (cfgs p).N) b
        fun w e => hb (Finset.mem_image.mpr ⟨w, Finset.mem_univ _, e⟩)
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin; rw [howed]
    icases HO with ⟨%W, -, HO⟩; iexists W; iexact HO

abbrev segsH : List (Pipeline.Seg (pcfgs (F := F)) adm (pdatsH m ρ) () defs₀ 𝒱H LH lvH) :=
  [ .region (regH m ρ 0 launch0 (We0 m ρ) (body_obligation0 _)),
    .host (hsegH hostOps1 hostOps1_sub hostOps1_fresh (Wx0 m ρ)),
    .region (regH m ρ 1 launch1 (We1 m ρ) (body_obligation1 _)),
    .host (hsegH hostOps2 hostOps2_sub hostOps2_fresh (Wx1 m ρ)),
    .region (regH m ρ 2 launch2 (We2 m ρ) (body_obligation2 _)),
    .host (hsegH hostOps3 hostOps3_sub hostOps3_fresh (Wx2 m ρ)),
    .region (regH m ρ 3 launch3 (We3 m ρ) (body_obligation3 _)) ]
theorem main_runH (c : Dev nD) : main (F := F) c = Pipeline.Seg.run (segsH m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = Wx3 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (We0 m ρ c) ∗ RH c)) (Tₙ := TnH m ρ)
    (hch := ⟨fun _ => .rfl, fun _ => .rfl, fun _ => .rfl, fun _ => .rfl, fun _ => .rfl, fun _ => .rfl, fun _ => .rfl, fun _ => sep_assoc'⟩)
    (hinit := by
      refine Pipeline.initEach LH lvH fun c => ?_
      rw [show unscopedBufs c (fun b => m ((c : Thread nD τ).loc b)) = StableHlo.held (c : Thread nD τ) (Pipeline.ucRefs τ sig) (We0 m ρ c)
        from Pipeline.unscopedBufs_held c (We0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wx3 m ρ c) s')
      isplitl [Hh] <;> iassumption)
    (hQ := fun s h => h)

theorem run_val : θ_run defs (onTc (τ := τ) (main (F := F))) ⟨m, fun _ => 0, ρ⟩ (fun r => ∀ c : Dev nD,
      r.2.mem ((c.tc : Thread nD τ).loc main_v21) = (dat3 (Ve3 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_ucH main_v21 (by decide))).trans (Wx3_arr m ρ c 7),
    (List.forall_iff_forall_mem (l := argsH)
      (p := fun b => r.2.mem ((c.tc : Thread nD τ).loc b) = m ((c.tc : Thread nD τ).loc b))).mpr
      fun b hb => (h c _ (mem_ucH b (argsH_keep b hb).1)).trans (Wx3_arg m ρ c b hb)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => (h c).2) (run_val m ρ)

end Cert.KernelIdeal.Hand

end
-- ==== Proof.Spec.lean ====
import Idealize.ShloMosaic.PureOps.Ideal
import Idealize.ShloMosaic.Lib.ValueIdx

noncomputable section

namespace Cert.Spec

open Idealize.ShloMosaic

abbrev B : Nat := 262144

abbrev cB : EReal := Ideal.ofBits .f32 0x48800000#32
abbrev cEps : EReal := Ideal.ofBits .f32 0x3727C5AC#32

-- Column k of row b is entry k % 16 of row x[b, k / 16] of table k / 16.
def emb (x : Fin B → Fin 17 → BitVec 32) (tab : Fin 17 → Fin 512 → Fin 16 → EReal) : Fin B → Fin 272 → EReal :=
  fun b k => tab ⟨k.val / 16, by omega⟩ ⟨(x b ⟨k.val / 16, by omega⟩).toNat % 512, Nat.mod_lt _ (by norm_num)⟩
    ⟨k.val % 16, Nat.mod_lt _ (by norm_num)⟩

def lin {K N : Nat} (h : Fin B → Fin K → EReal) (W : Fin K → Fin N → EReal) (b : Fin N → EReal) :
    Fin B → Fin N → EReal :=
  fun r n => max ((∑ k, h r k * W k n) + b n) 0

def colSum {N : Nat} (h : Fin B → Fin N → EReal) : Fin N → EReal := fun n => ∑ r, h r n
def colSumSq {N : Nat} (h : Fin B → Fin N → EReal) : Fin N → EReal := fun n => ∑ r, h r n * h r n

def mean {N : Nat} (h : Fin B → Fin N → EReal) : Fin N → EReal := fun n => Ideal.div (colSum h n) cB

-- The variance as the mean of the squares minus the squared mean,
def var {N : Nat} (h : Fin B → Fin N → EReal) : Fin N → EReal :=
  fun n => Ideal.div (colSumSq h n) cB - mean h n * mean h n

-- and as the mean of the squared deviations from the mean.
def varR {N : Nat} (h : Fin B → Fin N → EReal) : Fin N → EReal :=
  fun n => Ideal.div (∑ r, (h r n - mean h n) * (h r n - mean h n)) cB

def bnWith {N : Nat} (g be μ v : Fin N → EReal) (h : Fin B → Fin N → EReal) : Fin B → Fin N → EReal :=
  fun r n => g n * (h r n - μ n) * Ideal.rsqrt (v n + cEps) + be n

def bn {N : Nat} (g be : Fin N → EReal) (h : Fin B → Fin N → EReal) : Fin B → Fin N → EReal :=
  bnWith g be (mean h) (var h) h
def bnR {N : Nat} (g be : Fin N → EReal) (h : Fin B → Fin N → EReal) : Fin B → Fin N → EReal :=
  bnWith g be (mean h) (varR h) h

def out (h : Fin B → Fin 128 → EReal) (W : Fin 128 → Fin 1 → EReal) (b : Fin 1 → EReal) : Fin B → EReal :=
  fun r => (∑ k, h r k * W k 0) + b 0

section Whole

variable (x : Fin B → Fin 17 → BitVec 32) (tab : Fin 17 → Fin 512 → Fin 16 → EReal)
  (W0 : Fin 272 → Fin 256 → EReal) (b0 g0 be0 : Fin 256 → EReal)
  (W1 : Fin 256 → Fin 256 → EReal) (b1 g1 be1 : Fin 256 → EReal)
  (W2 : Fin 256 → Fin 128 → EReal) (b2 g2 be2 : Fin 128 → EReal)
  (Wo : Fin 128 → Fin 1 → EReal) (bo : Fin 1 → EReal)

def h0 : Fin B → Fin 256 → EReal := lin (emb x tab) W0 b0
def h1 : Fin B → Fin 256 → EReal := lin (bn g0 be0 (h0 x tab W0 b0)) W1 b1
def h2 : Fin B → Fin 128 → EReal := lin (bn g1 be1 (h1 x tab W0 b0 g0 be0 W1 b1)) W2 b2
def G : Fin B → EReal := out (bn g2 be2 (h2 x tab W0 b0 g0 be0 W1 b1 g1 be1 W2 b2)) Wo bo

def h1R : Fin B → Fin 256 → EReal := lin (bnR g0 be0 (h0 x tab W0 b0)) W1 b1
def h2R : Fin B → Fin 128 → EReal := lin (bnR g1 be1 (h1R x tab W0 b0 g0 be0 W1 b1)) W2 b2
def GR : Fin B → EReal := out (bnR g2 be2 (h2R x tab W0 b0 g0 be0 W1 b1 g1 be1 W2 b2)) Wo bo

end Whole

end Cert.Spec

end
-- ==== Proof.KI.Mid.lean ====
import proofs.«426721_j37477884625195_1_alg».proof.Proof.Gen.KernelIdeal.Regions
import proofs.«426721_j37477884625195_1_alg».proof.Proof.Spec
import Idealize.ShloMosaic.Lib.StableHlo.Run
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.StableHlo

variable (W : Valuation τ sig (Elt Ideal))

-- After each of the first three regions: the mean is the column's sum over the row count, the variance the sum of squares over it minus the squared mean.
theorem mid1_mean (n : Fin 256) :
    StableHlo.after (hostOps1 (F := Ideal)) W (Proc.devRef .tc main_v2) (ValueIdx.ix1 n)
      = Ideal.div (W (Proc.devRef .tc main_v0_1) (ValueIdx.ix1 n)) Cert.Spec.cB := by
  after_results; rfl

theorem mid1_var (n : Fin 256) :
    StableHlo.after (hostOps1 (F := Ideal)) W (Proc.devRef .tc main_v6) (ValueIdx.ix1 n)
      = Ideal.div (W (Proc.devRef .tc main_v0_2) (ValueIdx.ix1 n)) Cert.Spec.cB
        - Ideal.div (W (Proc.devRef .tc main_v0_1) (ValueIdx.ix1 n)) Cert.Spec.cB
          * Ideal.div (W (Proc.devRef .tc main_v0_1) (ValueIdx.ix1 n)) Cert.Spec.cB := by
  after_results; rfl

theorem mid2_mean (n : Fin 256) :
    StableHlo.after (hostOps2 (F := Ideal)) W (Proc.devRef .tc main_v9) (ValueIdx.ix1 n)
      = Ideal.div (W (Proc.devRef .tc main_v7_1) (ValueIdx.ix1 n)) Cert.Spec.cB := by
  after_results; rfl

theorem mid2_var (n : Fin 256) :
    StableHlo.after (hostOps2 (F := Ideal)) W (Proc.devRef .tc main_v13) (ValueIdx.ix1 n)
      = Ideal.div (W (Proc.devRef .tc main_v7_2) (ValueIdx.ix1 n)) Cert.Spec.cB
        - Ideal.div (W (Proc.devRef .tc main_v7_1) (ValueIdx.ix1 n)) Cert.Spec.cB
          * Ideal.div (W (Proc.devRef .tc main_v7_1) (ValueIdx.ix1 n)) Cert.Spec.cB := by
  after_results; rfl

theorem mid3_mean (n : Fin 128) :
    StableHlo.after (hostOps3 (F := Ideal)) W (Proc.devRef .tc main_v16) (ValueIdx.ix1 n)
      = Ideal.div (W (Proc.devRef .tc main_v14_1) (ValueIdx.ix1 n)) Cert.Spec.cB := by
  after_results; rfl

theorem mid3_var (n : Fin 128) :
    StableHlo.after (hostOps3 (F := Ideal)) W (Proc.devRef .tc main_v20) (ValueIdx.ix1 n)
      = Ideal.div (W (Proc.devRef .tc main_v14_2) (ValueIdx.ix1 n)) Cert.Spec.cB
        - Ideal.div (W (Proc.devRef .tc main_v14_1) (ValueIdx.ix1 n)) Cert.Spec.cB
          * Ideal.div (W (Proc.devRef .tc main_v14_1) (ValueIdx.ix1 n)) Cert.Spec.cB := by
  after_results; rfl

end Cert.KernelIdeal.Val

end
-- ==== Proof.SpecLemmas.lean ====
import proofs.«426721_j37477884625195_1_alg».proof.Proof.Spec
import Idealize.ShloMosaic.PureOps.Ideal
import Mathlib.Data.EReal.Basic
import Mathlib.Data.EReal.Operations
import Mathlib.Logic.Equiv.Fin.Basic
import Mathlib.Algebra.BigOperators.Group.Finset.Basic
import Mathlib.Algebra.BigOperators.Ring.Finset
import Mathlib.Analysis.SpecialFunctions.Pow.Real
import Mathlib.Tactic.Ring
import Mathlib.Tactic.NormNum
import Mathlib.Tactic.Positivity

noncomputable section

namespace Cert.Spec

open Idealize.ShloMosaic
open scoped BigOperators

theorem cB_eq : cB = ((262144 : ℝ) : EReal) := by
  simp [Ideal.ofBits, Ideal.ieee, -EReal.coe_mul]; norm_num

theorem cEps_eq : cEps = (((10995116 : ℝ) * (2 : ℝ) ^ (-40 : ℤ) : ℝ) : EReal) := by
  simp [Ideal.ofBits, Ideal.ieee, -EReal.coe_mul]

theorem cEps_pos : ∃ e : ℝ, 0 < e ∧ cEps = ((e : ℝ) : EReal) :=
  ⟨(10995116 : ℝ) * (2 : ℝ) ^ (-40 : ℤ), by positivity, cEps_eq⟩

-- Every term but the one at position k is 0 * T r = 0, at the infinities too.
theorem sum_onehot {n : Nat} (T : Fin n → EReal) (k : Nat) (hk : k < n) :
    ∑ r : Fin n, (if r.val = k then (1 : EReal) else 0) * T r = T ⟨k, hk⟩ := by
  rw [Finset.sum_eq_single (⟨k, hk⟩ : Fin n)]
  · simp
  · intro b _ hb
    have hne : b.val ≠ k := fun h => hb (Fin.ext h)
    simp [hne]
  · intro h
    exact absurd (Finset.mem_univ _) h

-- (t, j) ↦ t * 2048 + j is a bijection from blocks and rows of a block onto the rows.
theorem sum_blocks (f : Fin 262144 → EReal) :
    ∑ r, f r = ∑ t : Fin 128, ∑ j : Fin 2048, f ⟨t.val * 2048 + j.val, by omega⟩ := by
  have h := Equiv.sum_comp (finProdFinEquiv (m := 128) (n := 2048)) f
  rw [← h, Fintype.sum_prod_type]
  refine Finset.sum_congr rfl fun t _ => Finset.sum_congr rfl fun j _ => ?_
  congr 1
  apply Fin.ext
  simp only [finProdFinEquiv_apply_val]
  omega

def IsReal2 {ι κ : Type} (h : ι → κ → EReal) : Prop := ∀ i k, ∃ y : ℝ, h i k = (y : EReal)
def IsReal1 {ι : Type} (v : ι → EReal) : Prop := ∀ i, ∃ y : ℝ, v i = (y : EReal)

theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem IsReal2.eq_coe {ι κ : Type} {h : ι → κ → EReal} (hh : IsReal2 h) :
    ∃ x : ι → κ → ℝ, h = fun i k => (x i k : EReal) := by
  choose x hx using hh
  exact ⟨x, funext fun i => funext fun k => hx i k⟩

theorem IsReal1.eq_coe {ι : Type} {v : ι → EReal} (hv : IsReal1 v) :
    ∃ x : ι → ℝ, v = fun i => (x i : EReal) := by
  choose x hx using hv
  exact ⟨x, funext fun i => hx i⟩

theorem lin_real {K N : Nat} {h : Fin B → Fin K → EReal} {W : Fin K → Fin N → EReal} {b : Fin N → EReal}
    (hh : IsReal2 h) (hW : IsReal2 W) (hb : IsReal1 b) : IsReal2 (lin h W b) := by
  obtain ⟨x, rfl⟩ := hh.eq_coe
  obtain ⟨w, rfl⟩ := hW.eq_coe
  obtain ⟨c, rfl⟩ := hb.eq_coe
  intro r n
  refine ⟨max ((∑ k, x r k * w k n) + c n) 0, ?_⟩
  simp only [lin]
  rw [coe_max, EReal.coe_add, coe_sum, EReal.coe_zero]
  simp only [EReal.coe_mul]

theorem emb_real {x : Fin B → Fin 17 → BitVec 32} {tab : Fin 17 → Fin 512 → Fin 16 → EReal}
    (ht : ∀ t r e, ∃ y : ℝ, tab t r e = (y : EReal)) : IsReal2 (emb x tab) :=
  fun _ _ => ht _ _ _

section Column

variable {N : Nat} (x : Fin B → Fin N → ℝ) (n : Fin N)

theorem mean_coe : mean (fun r k => (x r k : EReal)) n = (((∑ r, x r n) * (1 / 262144) : ℝ) : EReal) := by
  simp only [mean, colSum]
  rw [cB_eq, Ideal.div_coe (by norm_num), ← coe_sum, ← EReal.coe_mul]

theorem var_coe : var (fun r k => (x r k : EReal)) n =
    (((∑ r, x r n * x r n) * (1 / 262144)
      - ((∑ r, x r n) * (1 / 262144)) * ((∑ r, x r n) * (1 / 262144)) : ℝ) : EReal) := by
  simp only [var]
  rw [mean_coe]
  simp only [colSumSq]
  rw [cB_eq, Ideal.div_coe (by norm_num)]
  simp only [← EReal.coe_mul]
  rw [← coe_sum, ← EReal.coe_mul, ← EReal.coe_sub]

theorem varR_coe : varR (fun r k => (x r k : EReal)) n =
    (((∑ r, (x r n - (∑ r, x r n) * (1 / 262144)) * (x r n - (∑ r, x r n) * (1 / 262144)))
      * (1 / 262144) : ℝ) : EReal) := by
  simp only [varR]
  rw [mean_coe]
  rw [cB_eq, Ideal.div_coe (by norm_num)]
  simp only [← EReal.coe_sub, ← EReal.coe_mul]
  rw [← coe_sum, ← EReal.coe_mul]

theorem sum_sq_dev (y : Fin B → ℝ) (μ : ℝ) :
    ∑ r, (y r - μ) * (y r - μ) = (∑ r, y r * y r) - 2 * μ * (∑ r, y r) + 262144 * (μ * μ) := by
  have h1 : ∀ r, (y r - μ) * (y r - μ) = y r * y r - 2 * μ * y r + μ * μ := fun r => by ring
  simp only [h1]
  rw [Finset.sum_add_distrib, Finset.sum_sub_distrib, ← Finset.mul_sum, Finset.sum_const, Finset.card_univ,
    Fintype.card_fin, nsmul_eq_mul]
  norm_num

end Column

-- With μ = (Σ h) / n: Σ (h − μ)² / n = Σ h² / n − 2 μ (Σ h) / n + μ² = Σ h² / n − μ².
theorem var_eq_varR {N : Nat} {h : Fin B → Fin N → EReal} (hh : IsReal2 h) : var h = varR h := by
  obtain ⟨x, rfl⟩ := hh.eq_coe
  funext n
  rw [var_coe, varR_coe, sum_sq_dev]
  congr 1
  ring

theorem var_nonneg_real {N : Nat} {h : Fin B → Fin N → EReal} (hh : IsReal2 h) (n : Fin N) :
    ∃ v : ℝ, 0 ≤ v ∧ var h n = (v : EReal) := by
  rw [var_eq_varR hh]
  obtain ⟨x, rfl⟩ := hh.eq_coe
  refine ⟨_, ?_, varR_coe x n⟩
  apply mul_nonneg
  · exact Finset.sum_nonneg fun r _ => mul_self_nonneg _
  · norm_num

theorem rsqrt_pos_real {r : ℝ} (hr : 0 < r) : Ideal.rsqrt (r : EReal) = (((Real.sqrt r)⁻¹ : ℝ) : EReal) := by
  rw [Ideal.rsqrt_coe, if_neg (not_lt.2 hr.le), if_neg hr.ne']

-- The variance plus the positive offset is a positive real, so its inverse square root is a real.
theorem bn_real {N : Nat} {g be : Fin N → EReal} {h : Fin B → Fin N → EReal}
    (hg : IsReal1 g) (hbe : IsReal1 be) (hh : IsReal2 h) : IsReal2 (bn g be h) := by
  intro r n
  obtain ⟨v, hv0, hv⟩ := var_nonneg_real hh n
  obtain ⟨e, he0, he⟩ := cEps_pos
  obtain ⟨x, rfl⟩ := hh.eq_coe
  obtain ⟨gr, hgr⟩ := hg n
  obtain ⟨br, hbr⟩ := hbe n
  refine ⟨gr * (x r n - (∑ r, x r n) * (1 / 262144)) * (Real.sqrt (v + e))⁻¹ + br, ?_⟩
  simp only [bn, bnWith]
  rw [hv, he, mean_coe, hgr, hbr, ← EReal.coe_add, rsqrt_pos_real (by positivity), ← EReal.coe_sub,
    ← EReal.coe_mul, ← EReal.coe_mul, ← EReal.coe_add]

theorem bnR_eq_bn {N : Nat} {g be : Fin N → EReal} {h : Fin B → Fin N → EReal} (hh : IsReal2 h) :
    bnR g be h = bn g be h := by
  rw [bnR, bn, var_eq_varR hh]

-- Every layer's entries are real, so each normalisation's variance is one number in both forms.
theorem GR_eq_G (x : Fin B → Fin 17 → BitVec 32) (tab : Fin 17 → Fin 512 → Fin 16 → EReal)
    (W0 : Fin 272 → Fin 256 → EReal) (b0 g0 be0 : Fin 256 → EReal)
    (W1 : Fin 256 → Fin 256 → EReal) (b1 g1 be1 : Fin 256 → EReal)
    (W2 : Fin 256 → Fin 128 → EReal) (b2 g2 be2 : Fin 128 → EReal)
    (Wo : Fin 128 → Fin 1 → EReal) (bo : Fin 1 → EReal)
    (htab : ∀ t r e, ∃ y : ℝ, tab t r e = (y : EReal))
    (hW0 : IsReal2 W0) (hb0 : IsReal1 b0) (hg0 : IsReal1 g0) (hbe0 : IsReal1 be0)
    (hW1 : IsReal2 W1) (hb1 : IsReal1 b1) (hg1 : IsReal1 g1) (hbe1 : IsReal1 be1)
    (hW2 : IsReal2 W2) (hb2 : IsReal1 b2) (hg2 : IsReal1 g2) (hbe2 : IsReal1 be2) :
    GR x tab W0 b0 g0 be0 W1 b1 g1 be1 W2 b2 g2 be2 Wo bo
      = G x tab W0 b0 g0 be0 W1 b1 g1 be1 W2 b2 g2 be2 Wo bo := by
  have _ := hg2
  have _ := hbe2
  have r0 : IsReal2 (h0 x tab W0 b0) := lin_real (emb_real htab) hW0 hb0
  have e1 : h1R x tab W0 b0 g0 be0 W1 b1 = h1 x tab W0 b0 g0 be0 W1 b1 := by
    rw [h1R, h1, bnR_eq_bn r0]
  have r1 : IsReal2 (h1 x tab W0 b0 g0 be0 W1 b1) := lin_real (bn_real hg0 hbe0 r0) hW1 hb1
  have e2 : h2R x tab W0 b0 g0 be0 W1 b1 g1 be1 W2 b2 = h2 x tab W0 b0 g0 be0 W1 b1 g1 be1 W2 b2 := by
    rw [h2R, h2, e1, bnR_eq_bn r1]
  have r2 : IsReal2 (h2 x tab W0 b0 g0 be0 W1 b1 g1 be1 W2 b2) := lin_real (bn_real hg1 hbe1 r1) hW2 hb2
  rw [GR, G, e2, bnR_eq_bn r2]

/-- A running total that starts at f 0 and adds f (n + 1) at step n + 1 is the sum of f over 0, …, m. -/
theorem acc_apply {N : ℕ} (a f : (n : ℕ) → n < N → EReal) (h0 : ∀ h, a 0 h = f 0 h)
    (hs : ∀ n h, a (n + 1) h = a n (Nat.lt_of_succ_lt h) + f (n + 1) h) :
    ∀ (m : ℕ) (hm : m < N), a m hm = ∑ t : Fin (m + 1), f t.val (by omega)
  | 0, hm => by rw [Fin.sum_univ_one]; exact h0 hm
  | m + 1, hm => by rw [Fin.sum_univ_castSucc, hs, acc_apply a f h0 hs m]; rfl

/-- A running total that adds the sum of F over block after block of 2048 rows is, after the 128th block, the sum of F over all rows. -/
theorem acc_total {N : ℕ} (hN : N = 128) (F : Fin 262144 → EReal) (a : (m : ℕ) → m < N → EReal)
    (h0 : ∀ h, a 0 h = ∑ j : Fin 2048, F ⟨0 * 2048 + j.val, by omega⟩)
    (hs : ∀ m h, a (m + 1) h = a m (Nat.lt_of_succ_lt h) + ∑ j : Fin 2048, F ⟨(m + 1) * 2048 + j.val, by omega⟩)
    (h : 127 < N) : a 127 h = ∑ r, F r := by
  subst hN
  exact (acc_apply a (fun m _ => ∑ j : Fin 2048, F ⟨m * 2048 + j.val, by omega⟩) h0 hs 127 h).trans (sum_blocks F).symm

/-- Reading an array through a map of indices that keeps every coordinate is reading the array. -/
theorem read_whole {S : Shape} {α : Type} (G : S.Idx → α) (e : S.Idx → S.Idx) (h : ∀ y a, (e y a).val = (y a).val) :
    (fun y => G (e y)) = G :=
  funext fun y => congrArg G (funext fun a => Fin.ext (h y a))

/-- The image of an index under an embedding lies in the embedding's range. -/
theorem mem_of_emb {sg : RefSig} {κ : Kind} {sp : Space} {S : Shape} {e : EltTy} (v : View sg κ sp S e) (y : S.Idx) {i : v.ty.Idx}
    (h : v.emb y = i) : i ∈ v.set := h ▸ v.emb_mem_set y

end Cert.Spec

end
-- ==== Proof.LibPlainMatmul.lean ====
import Idealize.ShloMosaic.Lib.ValueIdx
import Idealize.ShloMosaic.PureOps.Ideal.Laws

noncomputable section

namespace Cert.PlainMatmul

open Idealize.ShloMosaic Idealize.ShloMosaic.ValueIdx

variable {M K N : ℕ}

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

-- At contraction coordinate k, entry (r, c) reads the left operand at (r, k) and the right one at (k, c).
theorem idx_eq (r : Fin M) (c : Fin N) (k : Fin K) :
    (DotDims.plain M K N).lhsIdx (ix2 r c) ((contrEquiv1 (DotDims.plain M K N) K rfl rfl).symm k) = ix2 r k
    ∧ (DotDims.plain M K N).rhsIdx (ix2 r c) ((contrEquiv1 (DotDims.plain M K N) K rfl rfl).symm k) = ix2 k c :=
  have hk := contrEquiv1_symm_val (DotDims.plain M K N) K rfl rfl k
  ⟨funext fun x => Fin.ext (by
      match x with
      | ⟨0, _⟩ => exact lhs_row _ _
      | ⟨1, _⟩ => exact (lhs_col _ _).trans hk),
   funext fun x => Fin.ext (by
      match x with
      | ⟨0, _⟩ => exact (rhs_row _ _).trans hk
      | ⟨1, _⟩ => exact rhs_col _ _)⟩

-- Entry (r, c) of the product into the zero accumulator is the sum over k of a (r, k) * b (k, c).
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  exact Finset.sum_congr rfl fun k _ => by rw [(idx_eq r c k).1, (idx_eq r c k).2]

end Cert.PlainMatmul

end
-- ==== Proof.KI.Emb0.lean ====
import proofs.«426721_j37477884625195_1_alg».proof.Proof.KI.EmbDef
import proofs.«426721_j37477884625195_1_alg».proof.Proof.SpecLemmas
import proofs.«426721_j37477884625195_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.ValueIdx Idealize.SL.Sem
open scoped BigOperators

theorem sitofp_bit (p : Bool) :
    FloatOps.sitofp (F := Ideal) .f32 ((BitVec.ofBool p).setWidth 32) = if p then (1 : EReal) else 0 := by
  cases p <;> simp [FloatOps.sitofp]

def oneHot {F : FTy → Type} [FloatOps F] (col : IVec S2048x1 32) (v1 : IVec S2048x512 32) : FVec F S2048x512 .bf16 :=
  truncf .bf16 (sitofp .f32 (extui 32 (cmpi .eq (broadcastTo S2048x512 col broadcasts_S2048x1_S2048x512) v1) natLt_1_32))
    bitsLt_bf16_f32

def tblOp {F : FTy → Type} [FloatOps F] (t : Vec F S1x512x16 .f32) : FVec F S512x16 .bf16 :=
  truncf .bf16 (shapeCast S512x16 t shapeCasts_S1x512x16_S512x16) bitsLt_bf16_f32

def prodOp {F : FTy → Type} [FloatOps F] (oh : FVec F S2048x512 .bf16) (tb : FVec F S512x16 .bf16) : FVec F S2048x16 .f32 :=
  matmul dot_S2048x512_S512x16_S2048x16_1_0_0_1_n_n none oh tb (constant S2048x16 .f32 0x00000000#32)

theorem oneHot_apply (col : IVec S2048x1 32) (r : Fin 2048) (q : Fin 512) :
    oneHot (F := Ideal) col (iota .tc S2048x512 32 [1] iota_S2048x512_d1_w32) (ix2 r q)
      = if q.val = (col (ix2 r 0)).toNat then (1 : EReal) else 0 := by
  unfold oneHot
  rw [truncf_apply, sitofp_apply, extui_apply]
  show FloatOps.sitofp (F := Ideal) .f32 ((IntOp.cmpi .eq (broadcastTo S2048x512 col broadcasts_S2048x1_S2048x512 (ix2 r q))
      (iota .tc S2048x512 32 [1] iota_S2048x512_d1_w32 (ix2 r q))).setWidth 32) = _
  rw [broadcastTo_apply col broadcasts_S2048x1_S2048x512 (ix2 r q) (ix2 r 0)
      (fun a => by match a with | ⟨0, _⟩ => rfl | ⟨1, _⟩ => rfl),
    iota_single_apply]
  show FloatOps.sitofp (F := Ideal) .f32 ((BitVec.ofBool (col (ix2 r 0) == BitVec.ofNat 32 q.val)).setWidth 32) = _
  rw [sitofp_bit]
  have hq : q.val < 2 ^ 32 := by have := q.isLt; omega
  by_cases h : q.val = (col (ix2 r 0)).toNat
  · rw [if_pos h, if_pos]
    rw [beq_iff_eq]
    apply BitVec.eq_of_toNat_eq
    rw [BitVec.toNat_ofNat, Nat.mod_eq_of_lt hq, h]
  · rw [if_neg h, if_neg]
    rw [beq_iff_eq]
    intro e
    apply h
    rw [e, BitVec.toNat_ofNat, Nat.mod_eq_of_lt hq]

theorem tblOp_apply (t : Vec Ideal S1x512x16 .f32) (q : Fin 512) (e : Fin 16) :
    tblOp (F := Ideal) t (ix2 q e) = t (ix3 0 q e) := by
  unfold tblOp
  rw [truncf_apply]
  refine shapeCast_apply t shapeCasts_S1x512x16_S512x16 (ix2 q e) (ix3 0 q e) ?_
  rw [Shape.rowMajor_val_three, Shape.rowMajor_val_two]
  simp

theorem dot_eq_plain : dot_S2048x512_S512x16_S2048x16_1_0_0_1_n_n = DotDims.plain 2048 512 16 := rfl

-- The sum over the 512 positions has one term that is not 0 times a table entry.
theorem prodOp_apply (col : IVec S2048x1 32) (t : Vec Ideal S1x512x16 .f32) (r : Fin 2048) (e : Fin 16)
    (m : Nat) (hm : (col (ix2 r 0)).toNat = m) (hc : m < 512) :
    prodOp (F := Ideal) (oneHot col (iota .tc S2048x512 32 [1] iota_S2048x512_d1_w32)) (tblOp t) (ix2 r e)
      = t (ix3 0 ⟨m, hc⟩ e) := by
  unfold prodOp
  rw [dot_eq_plain]
  refine (Cert.PlainMatmul.apply none _ _ r e).trans ?_
  have h1 : ∀ q : Fin 512,
      oneHot (F := Ideal) col (iota .tc S2048x512 32 [1] iota_S2048x512_d1_w32) (ix2 r q) * tblOp (F := Ideal) t (ix2 q e)
        = (if q.val = m then (1 : EReal) else 0) * t (ix3 0 q e) := fun q => by
    rw [oneHot_apply, tblOp_apply, hm]
  rw [Finset.sum_congr rfl (fun q _ => h1 q)]
  exact Cert.Spec.sum_onehot (fun q : Fin 512 => t (ix3 0 q e)) m hc

theorem slice_prod (v0 : Vec Ideal S2048x17 .i32) (t : Vec Ideal S1x512x16 .f32) (n : Fin 17)
    (h : S2048x17.Slices ![0, n.val] S2048x1) (r : Fin 2048) (e : Fin 16) (hx : (v0 (ix2 r n)).toNat < 512) :
    prodOp (F := Ideal) (oneHot (extractStridedSlice S2048x1 ![0, n.val] v0 h)
        (iota .tc S2048x512 32 [1] iota_S2048x512_d1_w32)) (tblOp t) (ix2 r e)
      = t (ix3 0 ⟨(v0 (ix2 r n)).toNat, hx⟩ e) := by
  refine prodOp_apply _ t r e _ ?_ hx
  exact congrArg BitVec.toNat (extractStridedSlice_apply ![0, n.val] v0 h (ix2 r 0) (ix2 r n)
    (fun a => by match a with | ⟨0, _⟩ => exact (Nat.zero_add _).symm | ⟨1, _⟩ => rfl))

def pieces (v0 : Vec Ideal S2048x17 .i32) (tb : Fin 17 → Vec Ideal S1x512x16 .f32) : Fin 17 → FVec Ideal S2048x16 .f32 :=
  have v1 : IVec S2048x512 32 := iota .tc S2048x512 32 [1] iota_S2048x512_d1_w32
  fun n => match n with
  | ⟨0, _⟩ => k0_pay6 v0 (tb 0)
  | ⟨1, _⟩ => k0_pay7 v0 (tb 1)
  | ⟨2, _⟩ => k0_pay8 v0 (tb 2)
  | ⟨3, _⟩ => k0_pay11 (k0_pay9 v0) (k0_pay10 (tb 3)) (constant S2048x16 .f32 0x00000000#32)
  | ⟨4, _⟩ => k0_pay12 v0 v1 (tb 4)
  | ⟨5, _⟩ => k0_pay13 v0 v1 (tb 5)
  | ⟨6, _⟩ => k0_pay14 v0 v1 (tb 6)
  | ⟨7, _⟩ => k0_pay15 v0 v1 (tb 7)
  | ⟨8, _⟩ => k0_pay17 (k0_pay16 v0 v1) (tb 8)
  | ⟨9, _⟩ => k0_pay18 v0 v1 (tb 9)
  | ⟨10, _⟩ => k0_pay19 v0 v1 (tb 10)
  | ⟨11, _⟩ => k0_pay20 v0 v1 (tb 11)
  | ⟨12, _⟩ => k0_pay22 (k0_pay21 v0 v1) (tb 12)
  | ⟨13, _⟩ => k0_pay23 v0 v1 (tb 13)
  | ⟨14, _⟩ => k0_pay24 v0 v1 (tb 14)
  | ⟨15, _⟩ => k0_pay25 v0 v1 (tb 15)
  | ⟨16, _⟩ => k0_pay1 (k0_pay26 v0 v1) (k0_pay27 (tb 16))
  | ⟨_ + 17, h⟩ => absurd h (by omega)

theorem pieces_apply (v0 : Vec Ideal S2048x17 .i32) (tb : Fin 17 → Vec Ideal S1x512x16 .f32)
    (hx : ∀ r t, (v0 (ix2 r t)).toNat < 512) (n : Fin 17) (r : Fin 2048) (e : Fin 16) :
    pieces v0 tb n (ix2 r e) = tb n (ix3 0 ⟨(v0 (ix2 r n)).toNat, hx r n⟩ e) := by
  match n with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ | ⟨16, _⟩ =>
    symm; exact (slice_prod v0 _ _ _ r e (hx r _)).symm
  | ⟨_ + 17, h⟩ => exact absurd h (by omega)

theorem embBlk_eq_ofFn (v0 : Vec Ideal S2048x17 .i32) (tb : Fin 17 → Vec Ideal S1x512x16 .f32) :
    embBlk v0 tb = concatenate S2048x272 1
      (List.ofFn fun n : Fin 17 => (⟨S2048x16, pieces v0 tb n⟩ : (s : Shape) × (s.Idx → EReal)))
      concatenates_S2048x16_S2048x16_S2048x16_S2048x16_S2048x16_S2048x16_S2048x16_S2048x16_S2048x16_S2048x16_S2048x16_S2048x16_S2048x16_S2048x16_S2048x16_S2048x16_S2048x16_S2048x272_d1 :=
  rfl

-- The 17 pieces of width 16 lie side by side: column k is column k % 16 of piece k / 16.
theorem emb_block (v0 : Vec Ideal S2048x17 .i32) (tb : Fin 17 → Vec Ideal S1x512x16 .f32)
    (hx : ∀ r t, (v0 (ix2 r t)).toNat < 512) (r : Fin 2048) (k : Fin 272) :
    embBlk v0 tb (ix2 r k)
      = tb ⟨k.val / 16, by omega⟩ (ix3 0 ⟨(v0 (ix2 r ⟨k.val / 16, by omega⟩)).toNat, hx _ _⟩
          ⟨k.val % 16, Nat.mod_lt _ (by norm_num)⟩) := by
  rw [embBlk_eq_ofFn]
  refine (concatenate_ofFn_apply (1 : Fin S2048x272.rank) (pieces v0 tb) _ rfl 16 rfl (ix2 r k)
    ⟨k.val / 16, by omega⟩ rfl (ix2 r ⟨k.val % 16, Nat.mod_lt _ (by norm_num)⟩) rfl ?_).trans ?_
  · intro b hb
    match b with
    | ⟨0, _⟩ => rfl
    | ⟨1, _⟩ => exact absurd rfl hb
  · exact pieces_apply v0 tb hx _ r _

end Cert.KernelIdeal.Val

end
-- ==== Proof.KI.Arr0.lean ====
import proofs.«426721_j37477884625195_1_alg».proof.Proof.KI.R0
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

theorem idx0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 1) = 0 ∧ win0_6.index t (0 : Fin 1) = 0 :=
  (by decide +kernel : ∀ t : Fin grid0.N, _)

theorem lt0 (t : Fin cfg0.N) (p : Fin 2048) : t.val * 2048 + p.val < 262144 := by
  have h : t.val < 128 := lt_of_lt_of_eq t.isLt N_0
  have := p.isLt; omega

theorem blk0_0 (c : Dev nD) (t : Fin cfg0.N) (j : Fin 2048) (k : Fin 17) :
    (iblk0 V c 0 t : Vec F S2048x17 .i32) (ix2 j k) = V c main_arg0 (ix2 ⟨t.val * 2048 + j.val, lt0 t j⟩ k) := by
  unfold iblk0
  rw [View.read_apply]
  show V c main_arg0 _ = V c main_arg0 _
  congr 1
  funext a
  apply Fin.ext
  obtain ⟨e0, e1, -⟩ := idx0 t
  match a with
  | ⟨0, _⟩ => show win0_0.index t 0 * 2048 + 1 * j.val = t.val * 2048 + j.val; rw [e0]; omega
  | ⟨1, _⟩ => show win0_0.index t 1 * 17 + 1 * k.val = k.val; rw [e1]; omega

-- Windows 1, 2, 3 are at block 0 on every axis at every point: the block is the whole array.
theorem blk0_1 (c : Dev nD) (t : Fin cfg0.N) : (iblk0 V c 1 t : Vec F S17x512x16 .f32) = V c main_arg1 := by
  funext i
  unfold iblk0
  rw [View.read_apply]
  show V c main_arg1 _ = V c main_arg1 _
  congr 1
  funext a
  apply Fin.ext
  obtain ⟨-, -, e0, e1, e2, -⟩ := idx0 t
  match a with
  | ⟨0, _⟩ => show win0_1.index t 0 * 17 + 1 * (i 0).val = (i 0).val; rw [e0]; omega
  | ⟨1, _⟩ => show win0_1.index t 1 * 512 + 1 * (i 1).val = (i 1).val; rw [e1]; omega
  | ⟨2, _⟩ => show win0_1.index t 2 * 16 + 1 * (i 2).val = (i 2).val; rw [e2]; omega

theorem blk0_2 (c : Dev nD) (t : Fin cfg0.N) : (iblk0 V c 2 t : Vec F S272x256 .f32) = V c main_arg2 := by
  funext i
  unfold iblk0
  rw [View.read_apply]
  show V c main_arg2 _ = V c main_arg2 _
  congr 1
  funext a
  apply Fin.ext
  obtain ⟨-, -, -, -, -, e0, e1, -⟩ := idx0 t
  match a with
  | ⟨0, _⟩ => show win0_2.index t 0 * 272 + 1 * (i 0).val = (i 0).val; rw [e0]; omega
  | ⟨1, _⟩ => show win0_2.index t 1 * 256 + 1 * (i 1).val = (i 1).val; rw [e1]; omega

theorem blk0_3 (c : Dev nD) (t : Fin cfg0.N) : (iblk0 V c 3 t : Vec F S256 .f32) = V c main_arg3 := by
  funext i
  unfold iblk0
  rw [View.read_apply]
  show V c main_arg3 _ = V c main_arg3 _
  congr 1
  funext a
  apply Fin.ext
  obtain ⟨-, -, -, -, -, -, -, e0, -⟩ := idx0 t
  match a with
  | ⟨0, _⟩ => show win0_3.index t 0 * 256 + 1 * (i 0).val = (i 0).val; rw [e0]; omega

def rowPt (r : Fin 262144) : Fin cfg0.N := ⟨r.val / 2048, by rw [show cfg0.N = 128 from N_0]; have := r.isLt; omega⟩
def rowIn (r : Fin 262144) : Fin 2048 := ⟨r.val % 2048, Nat.mod_lt _ (by decide)⟩

def G4 (c : Dev nD) : S262144x256.Idx → Elt F .f32 := fun i =>
  o0_4 V c (rowPt (i 0)) (ix2 (rowIn (i 0)) (i 1))

theorem G4_at (c : Dev nD) (i : S262144x256.Idx) (t : Fin cfg0.N) (p : Fin 2048) (q : Fin 256)
    (h0 : (i 0).val = t.val * 2048 + p.val) (h1 : (i 1).val = q.val) : G4 V c i = o0_4 V c t (ix2 p q) := by
  have hp := p.isLt
  have et : rowPt (i 0) = t := Fin.ext (by show (i 0).val / 2048 = t.val; omega)
  have ep : rowIn (i 0) = p := Fin.ext (by show (i 0).val % 2048 = p.val; omega)
  have eq : (i 1 : Fin 256) = q := Fin.ext h1
  unfold G4; rw [et, ep, eq]

theorem cut0_4_eq_read (t : Fin cfg0.N) (X : Vec F S2048x256 .f32) (G : S262144x256.Idx → Elt F .f32)
    (h : ∀ (p : Fin 2048) (q : Fin 256), G (ix2 ⟨t.val * 2048 + p.val, lt0 t p⟩ q) = X (ix2 p q)) :
    (cfg0.win 4).cut (grid0.coords t) X = ((cfg0.win 4).blk t).view.read (Elt F) G := by
  refine funext fun (j : S2048x256.Idx) => ?_
  obtain ⟨p, q, rfl⟩ : ∃ (p : Fin 2048) (q : Fin 256), j = ix2 p q := ⟨j 0, j 1, eq_ix2 j⟩
  rw [View.read_apply]
  obtain ⟨-, -, -, -, -, -, -, -, e0, e1, -⟩ := idx0 t
  refine Eq.trans (b := X (ix2 p q)) rfl ?_
  rw [← h p q]
  congr 1
  funext a
  apply Fin.ext
  match a with
  | ⟨0, _⟩ => show t.val * 2048 + p.val = win0_4.index t 0 * 2048 + 1 * p.val; rw [e0]; omega
  | ⟨1, _⟩ => show q.val = win0_4.index t 1 * 256 + 1 * q.val; rw [e1]; omega

theorem flushed0_4_eq (c : Dev nD) (t : Fin cfg0.N) :
    (dat0 V c).flushed 4 t = ((cfg0.win 4).blk t).view.read (Elt F) (G4 V c) := by
  show (cfg0.win 4).cut (grid0.coords t) ((dat0 V c).after 4 t) = _
  rw [after0_4]
  exact cut0_4_eq_read t (o0_4 V c t) (G4 V c) fun p q => G4_at V c _ t p q rfl rfl

theorem mem_blk0_4 (t : Fin cfg0.N) (i : S262144x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v0_0).slice (win0_4.rect t)).set ↔ _
  rw [View.set_slice_whole, Rect.mem_set_unit]
  exact Iff.rfl

-- Row r lies in the block of point r / 2048.
theorem final0_4 (c : Dev nD) : (dat0 V c).arrAt 4 cfg0.N = G4 V c :=
  (dat0 V c).arrAt_eq_of_cover 4 (G4 V c) (fun t _ => flushed0_4_eq V c t) fun i => by
    have hi0 : (i 0).val < 262144 := (i 0).isLt
    have hi1 : (i 1).val < 256 := (i 1).isLt
    refine ⟨⟨(i 0).val / 2048, by rw [show cfg0.N = 128 from N_0]; omega⟩, flush0_4 _, ?_⟩
    rw [mem_blk0_4]
    obtain ⟨-, -, -, -, -, -, -, -, e0, e1, -⟩ := idx0 ⟨(i 0).val / 2048, by rw [show cfg0.N = 128 from N_0]; omega⟩
    intro a
    match a with
    | ⟨0, _⟩ =>
      show win0_4.index _ (0 : Fin 2) * 2048 ≤ (i 0).val ∧ (i 0).val < win0_4.index _ (0 : Fin 2) * 2048 + 2048
      rw [e0]; show (i 0).val / 2048 * 2048 ≤ (i 0).val ∧ (i 0).val < (i 0).val / 2048 * 2048 + 2048; omega
    | ⟨1, _⟩ =>
      show win0_4.index _ (1 : Fin 2) * 256 ≤ (i 1).val ∧ (i 1).val < win0_4.index _ (1 : Fin 2) * 256 + 256
      rw [e1]; omega

theorem arr0_4 (c : Dev nD) (t : Fin cfg0.N) (j : Fin 2048) (n : Fin 256) :
    (dat0 V c).arrAt 4 cfg0.N (ix2 ⟨t.val * 2048 + j.val, lt0 t j⟩ n) = o0_4 V c t (ix2 j n) :=
  (congrFun (final0_4 V c) (ix2 ⟨t.val * 2048 + j.val, lt0 t j⟩ n)).trans (G4_at V c _ t j n rfl rfl)

abbrev tLast : Fin cfg0.N := ⟨127, by rw [show cfg0.N = 128 from N_0]; decide⟩

theorem cut0_5_eq_read (X : Vec F S256 .f32) :
    (cfg0.win 5).cut (grid0.coords tLast) X = ((cfg0.win 5).blk tLast).view.read (Elt F) X := by
  refine funext fun (j : S256.Idx) => ?_
  obtain ⟨n, rfl⟩ : ∃ (n : Fin 256), j = ix1 n := ⟨j 0, eq_ix1 j⟩
  rw [View.read_apply]
  refine Eq.trans (b := X (ix1 n)) rfl ?_
  congr 1
  funext a
  apply Fin.ext
  obtain ⟨-, -, -, -, -, -, -, -, -, -, e, -⟩ := idx0 tLast
  match a with
  | ⟨0, _⟩ => show n.val = win0_5.index tLast 0 * 256 + 1 * n.val; rw [e]; omega

theorem flushed0_5_eq (c : Dev nD) (t : Fin cfg0.N) (hf : (cfg0.win 5).flush t = true) :
    (dat0 V c).flushed 5 t = ((cfg0.win 5).blk t).view.read (Elt F) (o0_5 V c tLast) := by
  have hN : cfg0.N = 128 := N_0
  have h : t.val = 127 := by have := (flush0_5 t).mp hf; have := t.isLt; omega
  obtain rfl : t = tLast := Fin.ext h
  show (cfg0.win 5).cut (grid0.coords tLast) ((dat0 V c).after 5 tLast) = _
  rw [after0_5]
  exact cut0_5_eq_read (o0_5 V c tLast)

theorem mem_blk0_5 (t : Fin cfg0.N) (i : S256.Idx) :
    i ∈ ((cfg0.win 5).blk t).view.set ↔ ∀ a : Fin 1, win0_5.index t a * S256.size a ≤ (i a).val ∧ (i a).val < win0_5.index t a * S256.size a + S256.size a := by
  show i ∈ ((View.whole main_v0_1).slice (win0_5.rect t)).set ↔ _
  rw [View.set_slice_whole, Rect.mem_set_unit]
  exact Iff.rfl

-- After the region the arrays of windows 5 and 6 hold what the last point leaves.
theorem arr0_5 (c : Dev nD) : (dat0 V c).arrAt 5 cfg0.N = o0_5 V c tLast :=
  (dat0 V c).arrAt_eq_of_cover 5 (o0_5 V c tLast) (flushed0_5_eq V c) fun i => by
    have hi0 : (i 0).val < 256 := (i 0).isLt
    refine ⟨tLast, (flush0_5 tLast).mpr rfl, ?_⟩
    rw [mem_blk0_5]
    obtain ⟨-, -, -, -, -, -, -, -, -, -, e, -⟩ := idx0 tLast
    intro a
    match a with
    | ⟨0, _⟩ =>
      show win0_5.index _ (0 : Fin 1) * 256 ≤ (i 0).val ∧ (i 0).val < win0_5.index _ (0 : Fin 1) * 256 + 256
      rw [e]; omega

theorem cut0_6_eq_read (X : Vec F S256 .f32) :
    (cfg0.win 6).cut (grid0.coords tLast) X = ((cfg0.win 6).blk tLast).view.read (Elt F) X := by
  refine funext fun (j : S256.Idx) => ?_
  obtain ⟨n, rfl⟩ : ∃ (n : Fin 256), j = ix1 n := ⟨j 0, eq_ix1 j⟩
  rw [View.read_apply]
  refine Eq.trans (b := X (ix1 n)) rfl ?_
  congr 1
  funext a
  apply Fin.ext
  obtain ⟨-, -, -, -, -, -, -, -, -, -, -, e⟩ := idx0 tLast
  match a with
  | ⟨0, _⟩ => show n.val = win0_6.index tLast 0 * 256 + 1 * n.val; rw [e]; omega

theorem flushed0_6_eq (c : Dev nD) (t : Fin cfg0.N) (hf : (cfg0.win 6).flush t = true) :
    (dat0 V c).flushed 6 t = ((cfg0.win 6).blk t).view.read (Elt F) (o0_6 V c tLast) := by
  have hN : cfg0.N = 128 := N_0
  have h : t.val = 127 := by have := (flush0_6 t).mp hf; have := t.isLt; omega
  obtain rfl : t = tLast := Fin.ext h
  show (cfg0.win 6).cut (grid0.coords tLast) ((dat0 V c).after 6 tLast) = _
  rw [after0_6]
  exact cut0_6_eq_read (o0_6 V c tLast)

theorem mem_blk0_6 (t : Fin cfg0.N) (i : S256.Idx) :
    i ∈ ((cfg0.win 6).blk t).view.set ↔ ∀ a : Fin 1, win0_6.index t a * S256.size a ≤ (i a).val ∧ (i a).val < win0_6.index t a * S256.size a + S256.size a := by
  show i ∈ ((View.whole main_v0_2).slice (win0_6.rect t)).set ↔ _
  rw [View.set_slice_whole, Rect.mem_set_unit]
  exact Iff.rfl

theorem arr0_6 (c : Dev nD) : (dat0 V c).arrAt 6 cfg0.N = o0_6 V c tLast :=
  (dat0 V c).arrAt_eq_of_cover 6 (o0_6 V c tLast) (flushed0_6_eq V c) fun i => by
    have hi0 : (i 0).val < 256 := (i 0).isLt
    refine ⟨tLast, (flush0_6 tLast).mpr rfl, ?_⟩
    rw [mem_blk0_6]
    obtain ⟨-, -, -, -, -, -, -, -, -, -, -, e⟩ := idx0 tLast
    intro a
    match a with
    | ⟨0, _⟩ =>
      show win0_6.index _ (0 : Fin 1) * 256 ≤ (i 0).val ∧ (i 0).val < win0_6.index _ (0 : Fin 1) * 256 + 256
      rw [e]; omega

end Cert.KernelIdeal.Val

end
-- ==== Proof.KI.Val0.lean ====
import proofs.«426721_j37477884625195_1_alg».proof.Proof.KI.R0
import proofs.«426721_j37477884625195_1_alg».proof.Proof.KI.Emb0
import proofs.«426721_j37477884625195_1_alg».proof.Proof.KI.Arr0
import proofs.«426721_j37477884625195_1_alg».proof.Proof.SpecLemmas
import proofs.«426721_j37477884625195_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

theorem dot272_eq_plain : dot_S2048x272_S272x256_S2048x256_1_0_0_1_n_n = DotDims.plain 2048 272 256 := rfl

theorem k0_pay2_apply (e : FVec Ideal S2048x272 .f32) (w : Vec Ideal S272x256 .f32) (b : Vec Ideal S256 .f32)
    (r : Fin 2048) (n : Fin 256) :
    k0_pay2 e w b (ix2 r n) = max ((∑ k : Fin 272, e (ix2 r k) * w (ix2 k n)) + b (ix1 n)) 0 := by
  unfold k0_pay2
  have hz : (Scalar.ofBits .f32 0x00000000#32 : Ideal .f32) = 0 := Ideal.ofBits_zero_f32
  rw [maximumf_apply, addf_apply, broadcast_apply, dot272_eq_plain, broadcastTo_1b_ab_apply, shapeCast_a_1a_apply, hz]
  exact congrArg (fun s => max (s + b (ix1 n)) 0) (Cert.PlainMatmul.apply none _ _ r n)

theorem k0_colsum_apply (h : FVec Ideal S2048x256 .f32) (n : Fin 256) :
    multiReduction .add [0] S256 h 0x00000000#32 reduces_S2048x256_S256 (.inl rfl) rfl (ix1 n)
      = ∑ r : Fin 2048, h (ix2 r n) := by
  refine (Ideal.multiReduction_add_single h 0x00000000#32 reduces_S2048x256_S256 (.inl rfl) rfl (ix1 n)).trans ?_
  refine Finset.sum_congr rfl fun r _ => congrArg h ?_
  funext c
  apply Fin.ext
  rw [Shape.Reduces.lift_val]
  unfold Shape.Reduces.liftVal
  match c with
  | ⟨0, _⟩ | ⟨1, _⟩ => rfl

theorem k0_pay3_apply (h : FVec Ideal S2048x256 .f32) (n : Fin 256) :
    k0_pay3 h (ix1 n) = ∑ r : Fin 2048, h (ix2 r n) * h (ix2 r n) := by
  unfold k0_pay3
  exact k0_colsum_apply (mulf h h) n

theorem tabs_apply (x1 : Vec Ideal S17x512x16 .f32) (j : Fin 17) (q : Fin 512) (e : Fin 16) :
    tabs x1 j (ix3 0 q e) = x1 (ix3 j q e) := by
  unfold tabs
  show x1 ((rT j).idx (ix3 0 q e)) = x1 (ix3 j q e)
  refine congrArg x1 (funext fun a => Fin.ext ?_)
  rw [LoadRect.idx_apply]
  match a with
  | ⟨0, _⟩ => show j.val + 1 * 0 = j.val; omega
  | ⟨1, _⟩ => show 0 + 1 * q.val = q.val; omega
  | ⟨2, _⟩ => show 0 + 1 * e.val = e.val; omega

private theorem hz1 : (![0] : Fin 1 → Nat) = fun _ => 0 := funext fun a => by fin_cases a; rfl
private theorem hz2 : (![0, 0] : Fin 2 → Nat) = fun _ => 0 := funext fun a => by fin_cases a <;> rfl

theorem lt_rows0 {t : ℕ} (ht : t < 128) (j : Fin 2048) : t * 2048 + j.val < 262144 := by
  have := j.isLt; omega

theorem h0blk_spec (x0 : Vec Ideal S2048x17 .i32) (x1 y1 : Vec Ideal S17x512x16 .f32) (x2 y2 : Vec Ideal S272x256 .f32)
    (x3 y3 : Vec Ideal S256 .f32) (X : Fin Cert.Spec.B → Fin 17 → BitVec 32) (t : ℕ) (ht : t < 128)
    (h0 : ∀ j k, x0 (ix2 j k) = X ⟨t * 2048 + j.val, lt_rows0 ht j⟩ k) (h1 : x1 = y1) (h2 : x2 = y2) (h3 : x3 = y3)
    (hx : ∀ b a, (X b a).toNat < 512) (j : Fin 2048) (n : Fin 256) :
    h0blk x0 x1 x2 x3 (ix2 j n) = Cert.Spec.h0 X (fun a q e => y1 (ix3 a q e)) (fun k n => y2 (ix2 k n))
      (fun n => y3 (ix1 n)) ⟨t * 2048 + j.val, lt_rows0 ht j⟩ n := by
  subst h1 h2 h3
  have hx0 : ∀ r a, (x0 (ix2 r a)).toNat < 512 := fun r a => by rw [h0]; exact hx _ _
  unfold h0blk
  rw [View.ld_unit_zero (S := S2048x17) hz2, View.ld_unit_zero (S := S272x256) hz2, View.ld_unit_zero (S := S256) hz1,
    k0_pay2_apply]
  unfold Cert.Spec.h0 Cert.Spec.lin Cert.Spec.emb
  refine congrArg (fun s => max (s + x3 (ix1 n)) 0) (Finset.sum_congr rfl fun k _ => ?_)
  rw [emb_block x0 (tabs x1) hx0 j k, tabs_apply]
  refine congrArg (fun q => x1 (ix3 _ q _) * x2 (ix2 k n)) (Fin.ext ?_)
  show (x0 (ix2 j ⟨k.val / 16, _⟩)).toNat = (X _ _).toNat % 512
  rw [h0, Nat.mod_eq_of_lt (hx _ _)]

theorem out0_4_apply (x0 : Vec Ideal S2048x17 .i32) (x1 : Vec Ideal S17x512x16 .f32) (x2 : Vec Ideal S272x256 .f32)
    (x3 : Vec Ideal S256 .f32) (j : Fin 2048) (n : Fin 256) :
    out0_4 x0 x1 x2 x3 (ix2 j n) = h0blk x0 x1 x2 x3 (ix2 j n) := by
  unfold out0_4
  rw [View.canon_unit_zero hz2]

theorem out0_A_apply (x0 : Vec Ideal S2048x17 .i32) (x1 : Vec Ideal S17x512x16 .f32) (x2 : Vec Ideal S272x256 .f32)
    (x3 : Vec Ideal S256 .f32) (n : Fin 256) :
    out0_5_A x0 x1 x2 x3 (ix1 n) = ∑ j : Fin 2048, h0blk x0 x1 x2 x3 (ix2 j n)
      ∧ out0_6_A x0 x1 x2 x3 (ix1 n) = ∑ j : Fin 2048, h0blk x0 x1 x2 x3 (ix2 j n) * h0blk x0 x1 x2 x3 (ix2 j n) := by
  unfold out0_5_A out0_6_A
  rw [View.canon_unit_zero hz1, View.canon_unit_zero hz1]
  exact ⟨k0_colsum_apply _ n, k0_pay3_apply _ n⟩

theorem out0_B_apply (x0 : Vec Ideal S2048x17 .i32) (x1 : Vec Ideal S17x512x16 .f32) (x2 : Vec Ideal S272x256 .f32)
    (x3 : Vec Ideal S256 .f32) (xo : Vec Ideal S256 .f32) (n : Fin 256) :
    out0_5_B x0 x1 x2 x3 xo (ix1 n) = xo (ix1 n) + ∑ j : Fin 2048, h0blk x0 x1 x2 x3 (ix2 j n)
      ∧ out0_6_B x0 x1 x2 x3 xo (ix1 n) = xo (ix1 n) + ∑ j : Fin 2048, h0blk x0 x1 x2 x3 (ix2 j n) * h0blk x0 x1 x2 x3 (ix2 j n) := by
  unfold out0_5_B out0_6_B k0_pay4 k0_pay5
  rw [View.canon_unit_zero hz1, View.canon_unit_zero hz1, View.ld_unit_zero (S := S256) hz1, addf_apply, addf_apply,
    shapeCast_self]
  exact ⟨congrArg _ (k0_colsum_apply _ n), congrArg _ (k0_pay3_apply _ n)⟩

variable (V : (c : Dev nD) → (b : Ref sig .tc) → Buf (Elt Ideal) ((c : Thread nD τ).loc b))

abbrev Hblk0 (c : Dev nD) (t : Fin cfg0.N) : FVec Ideal S2048x256 .f32 :=
  h0blk (iblk0 V c 0 t) (iblk0 V c 1 t) (iblk0 V c 2 t) (iblk0 V c 3 t)

abbrev X0 (c : Dev nD) : Fin 262144 → Fin 17 → BitVec 32 := fun b t => V c main_arg0 (ix2 b t)
abbrev T0 (c : Dev nD) : Fin 17 → Fin 512 → Fin 16 → EReal := fun t r e => V c main_arg1 (ix3 t r e)
abbrev W0 (c : Dev nD) : Fin 272 → Fin 256 → EReal := fun k n => V c main_arg2 (ix2 k n)
abbrev Bv0 (c : Dev nD) : Fin 256 → EReal := fun n => V c main_arg3 (ix1 n)

theorem Hblk0_spec (c : Dev nD) (hx : ∀ b t, (X0 V c b t).toNat < 512) (t : Fin cfg0.N) (j : Fin 2048) (n : Fin 256) :
    Hblk0 V c t (ix2 j n)
      = Cert.Spec.h0 (X0 V c) (T0 V c) (W0 V c) (Bv0 V c) ⟨t.val * 2048 + j.val, lt_rows0 (lt_of_lt_of_eq t.isLt N_0) j⟩ n :=
  h0blk_spec _ _ _ _ _ _ _ (X0 V c) t.val (lt_of_lt_of_eq t.isLt N_0) (blk0_0 V c t) (blk0_1 V c t) (blk0_2 V c t)
    (blk0_3 V c t) hx j n

theorem arr0_h (c : Dev nD) (hx : ∀ b t, (X0 V c b t).toNat < 512) (b : Fin 262144) (n : Fin 256) :
    (dat0 V c).arrAt 4 cfg0.N (ix2 b n) = Cert.Spec.h0 (X0 V c) (T0 V c) (W0 V c) (Bv0 V c) b n := by
  obtain ⟨t, j, rfl⟩ : ∃ (t : Fin cfg0.N) (j : Fin 2048),
      b = ⟨t.val * 2048 + j.val, lt_rows0 (lt_of_lt_of_eq t.isLt N_0) j⟩ :=
    ⟨⟨b.val / 2048, by rw [show cfg0.N = 128 from N_0]; have := b.isLt; omega⟩, ⟨b.val % 2048, Nat.mod_lt _ (by norm_num)⟩,
      Fin.ext (by show b.val = b.val / 2048 * 2048 + b.val % 2048; omega)⟩
  exact (arr0_4 V c t j n).trans ((out0_4_apply _ _ _ _ j n).trans (Hblk0_spec V c hx t j n))

-- A sequence that starts at the first block's sum of g over its rows and adds each later block's is, at the last block, the sum of g over all rows.
theorem acc0_total (c : Dev nD) (hx : ∀ b t, (X0 V c b t).toNat < 512) (g : EReal → EReal) (n : Fin 256)
    (a : (m : ℕ) → m < cfg0.N → Vec Ideal S256 .f32)
    (h0 : ∀ h, a 0 h (ix1 n) = ∑ j : Fin 2048, g (Hblk0 V c ⟨0, h⟩ (ix2 j n)))
    (hs : ∀ m h, a (m + 1) h (ix1 n)
      = a m (Nat.lt_of_succ_lt h) (ix1 n) + ∑ j : Fin 2048, g (Hblk0 V c ⟨m + 1, h⟩ (ix2 j n)))
    (hN : 127 < cfg0.N) : a 127 hN (ix1 n) = ∑ r, g (Cert.Spec.h0 (X0 V c) (T0 V c) (W0 V c) (Bv0 V c) r n) := by
  rw [Cert.Spec.acc_apply (fun m hm => a m hm (ix1 n)) (fun t ht => ∑ j : Fin 2048, g (Hblk0 V c ⟨t, ht⟩ (ix2 j n))) h0 hs 127 hN,
    Cert.Spec.sum_blocks]
  exact Finset.sum_congr rfl fun t _ => Finset.sum_congr rfl fun j _ => congrArg g (Hblk0_spec V c hx ⟨t.val, _⟩ j n)

theorem arr0_sum (c : Dev nD) (hx : ∀ b t, (X0 V c b t).toNat < 512) (n : Fin 256) :
    (dat0 V c).arrAt 5 cfg0.N (ix1 n) = Cert.Spec.colSum (Cert.Spec.h0 (X0 V c) (T0 V c) (W0 V c) (Bv0 V c)) n :=
  (congrFun (arr0_5 V c) (ix1 n)).trans (acc0_total V c hx (fun x => x) n (acc0_5 V c)
    (fun _ => (out0_A_apply _ _ _ _ n).1) (fun _ _ => (out0_B_apply _ _ _ _ _ n).1) (lt_of_lt_of_eq (by decide : 127 < 128) N_0.symm))

theorem arr0_sumsq (c : Dev nD) (hx : ∀ b t, (X0 V c b t).toNat < 512) (n : Fin 256) :
    (dat0 V c).arrAt 6 cfg0.N (ix1 n) = Cert.Spec.colSumSq (Cert.Spec.h0 (X0 V c) (T0 V c) (W0 V c) (Bv0 V c)) n :=
  (congrFun (arr0_6 V c) (ix1 n)).trans (acc0_total V c hx (fun x => x * x) n (acc0_6 V c)
    (fun _ => (out0_A_apply _ _ _ _ n).2) (fun _ _ => (out0_B_apply _ _ _ _ _ n).2) (lt_of_lt_of_eq (by decide : 127 < 128) N_0.symm))

end Cert.KernelIdeal.Val

end
-- ==== Proof.KI.Val1.lean ====
import proofs.«426721_j37477884625195_1_alg».proof.Proof.KI.R1
import proofs.«426721_j37477884625195_1_alg».proof.Proof.SpecLemmas
import proofs.«426721_j37477884625195_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl

theorem y1_apply (x0 : Vec Ideal S2048x256 .f32) (x1 x2 x3 x4 : Vec Ideal S256 .f32) (x5 : Vec Ideal S256x256 .f32)
    (x6 : Vec Ideal S256 .f32) (p : Fin 2048) (n : Fin 256) :
    y1 x0 x1 x2 x3 x4 x5 x6 (ix2 p n)
      = max ((∑ k : Fin 256, (x3 (ix1 k) * (x0 (ix2 p k) - x1 (ix1 k)) * Ideal.rsqrt (x2 (ix1 k) + Cert.Spec.cEps) + x4 (ix1 k))
            * x5 (ix2 k n)) + x6 (ix1 n)) 0 := by
  unfold y1 k1_pay3
  simp only [View.ld_unit_zero (S := S2048x256) hz2, View.ld_unit_zero (S := S256) hz1,
    View.ld_unit_zero (S := S256x256) hz2, shapeCast_self]
  rw [maximumf_apply, addf_apply, broadcast_apply, broadcastTo_1b_ab_apply, shapeCast_a_1a_apply]
  refine congrArg₂ max (congrArg (· + _) ((Cert.PlainMatmul.apply none _ _ p n).trans (Finset.sum_congr rfl fun k _ => ?_)))
    Ideal.ofBits_zero_f32
  simp only [truncf_apply, addf_apply, mulf_apply, subf_apply, broadcastTo_1b_ab_apply, shapeCast_a_1a_apply]
  rfl

theorem colsum_block (src : FVec Ideal S2048x256 .f32) (h : S2048x256.Reduces [0] S256) (hφ : FKind.Formats .f32)
    (hacc : (0x00000000#32 : BitVec 32) = FKind.add.neutral .f32 hφ) (n : Fin 256) :
    multiReduction .add [0] S256 src 0x00000000#32 h hφ hacc (ix1 n) = ∑ p : Fin 2048, src (ix2 p n) :=
  (Ideal.multiReduction_add_single src 0x00000000#32 h hφ hacc (ix1 n)).trans
    (Finset.sum_congr rfl fun p _ => congrArg src (eq_ix2 _))

variable (V : (c : Dev nD) → (b : Ref sig .tc) → Buf (Elt Ideal) ((c : Thread nD τ).loc b)) (c : Dev nD) (t : Fin cfg1.N)

theorem idx1 : ∀ t : Fin cfg1.N, win1_0.index t 0 = t.val ∧ win1_0.index t 1 = 0
    ∧ (∀ a, win1_1.index t a = 0) ∧ (∀ a, win1_2.index t a = 0) ∧ (∀ a, win1_3.index t a = 0) ∧ (∀ a, win1_4.index t a = 0)
    ∧ (∀ a, win1_5.index t a = 0) ∧ (∀ a, win1_6.index t a = 0) ∧ (∀ a, win1_8.index t a = 0) ∧ (∀ a, win1_9.index t a = 0) :=
  (by decide +kernel : ∀ t : Fin grid1.N, _)

theorem lt1 (p : Fin 2048) : t.val * 2048 + p.val < 262144 := by
  have := lt_of_lt_of_eq t.isLt N_1; have := p.isLt; omega

theorem blk1_1 : (iblk1 V c 1 t : Vec Ideal S256 .f32) = V c main_v2 :=
  Cert.Spec.read_whole (S := S256) (V c main_v2) ((cfg1.win 1).blk t).view.emb fun y a =>
    Pipeline.Window.rect_emb_val_of_index_zero win1_1 t a ((idx1 t).2.2.1 a) y
theorem blk1_2 : (iblk1 V c 2 t : Vec Ideal S256 .f32) = V c main_v6 :=
  Cert.Spec.read_whole (S := S256) (V c main_v6) ((cfg1.win 2).blk t).view.emb fun y a =>
    Pipeline.Window.rect_emb_val_of_index_zero win1_2 t a ((idx1 t).2.2.2.1 a) y
theorem blk1_3 : (iblk1 V c 3 t : Vec Ideal S256 .f32) = V c main_arg4 :=
  Cert.Spec.read_whole (S := S256) (V c main_arg4) ((cfg1.win 3).blk t).view.emb fun y a =>
    Pipeline.Window.rect_emb_val_of_index_zero win1_3 t a ((idx1 t).2.2.2.2.1 a) y
theorem blk1_4 : (iblk1 V c 4 t : Vec Ideal S256 .f32) = V c main_arg5 :=
  Cert.Spec.read_whole (S := S256) (V c main_arg5) ((cfg1.win 4).blk t).view.emb fun y a =>
    Pipeline.Window.rect_emb_val_of_index_zero win1_4 t a ((idx1 t).2.2.2.2.2.1 a) y
theorem blk1_5 : (iblk1 V c 5 t : Vec Ideal S256x256 .f32) = V c main_arg6 :=
  Cert.Spec.read_whole (S := S256x256) (V c main_arg6) ((cfg1.win 5).blk t).view.emb fun y a =>
    Pipeline.Window.rect_emb_val_of_index_zero win1_5 t a ((idx1 t).2.2.2.2.2.2.1 a) y
theorem blk1_6 : (iblk1 V c 6 t : Vec Ideal S256 .f32) = V c main_arg7 :=
  Cert.Spec.read_whole (S := S256) (V c main_arg7) ((cfg1.win 6).blk t).view.emb fun y a =>
    Pipeline.Window.rect_emb_val_of_index_zero win1_6 t a ((idx1 t).2.2.2.2.2.2.2.1 a) y

/-- Entry (p, k) of the block of rows at point t sits at row 2048 t + p of the array. -/
theorem emb1_0 (p : Fin 2048) (k : Fin 256) :
    ((cfg1.win 0).blk t).view.emb (ix2 p k) = ix2 ⟨t.val * 2048 + p.val, lt1 t p⟩ k := by
  obtain ⟨e0, e1, -⟩ := idx1 t
  refine funext fun a => Fin.ext ?_
  match a with
  | ⟨0, _⟩ => show win1_0.index t 0 * 2048 + 1 * p.val = t.val * 2048 + p.val; rw [e0]; omega
  | ⟨1, _⟩ => show win1_0.index t 1 * 256 + 1 * k.val = k.val; rw [e1]; omega

theorem emb1_7 (p : Fin 2048) (k : Fin 256) :
    ((cfg1.win 7).blk t).view.emb (ix2 p k) = ix2 ⟨t.val * 2048 + p.val, lt1 t p⟩ k :=
  emb1_0 t p k

abbrev Y1 : Fin 262144 → Fin 256 → EReal :=
  Cert.Spec.lin (Cert.Spec.bnWith (fun j => V c main_arg4 (ix1 j)) (fun j => V c main_arg5 (ix1 j)) (fun j => V c main_v2 (ix1 j))
    (fun j => V c main_v6 (ix1 j)) fun r j => V c main_v0_0 (ix2 r j)) (fun j n => V c main_arg6 (ix2 j n)) fun n => V c main_arg7 (ix1 n)

/-- Row p of the block computed at point t is row 2048 t + p of the next layer. -/
theorem y1_blk (p : Fin 2048) (n : Fin 256) :
    y1 (iblk1 V c 0 t) (iblk1 V c 1 t) (iblk1 V c 2 t) (iblk1 V c 3 t) (iblk1 V c 4 t) (iblk1 V c 5 t) (iblk1 V c 6 t) (ix2 p n)
      = Y1 V c ⟨t.val * 2048 + p.val, lt1 t p⟩ n := by
  rw [y1_apply, blk1_1, blk1_2, blk1_3, blk1_4, blk1_5, blk1_6]
  refine congrArg (max · 0) (congrArg (· + _) (Finset.sum_congr rfl fun k _ => ?_))
  rw [show (iblk1 V c 0 t : Vec Ideal S2048x256 .f32) (ix2 p k) = _ from congrArg (V c main_v0_0) (emb1_0 t p k)]
  rfl

theorem after1_7 : (dat1 V c).after 7 t = o1_7 V c t := by dsimp only [dat1]
theorem after1_8 : (dat1 V c).after 8 t = o1_8 V c t := by dsimp only [dat1]
theorem after1_9 : (dat1 V c).after 9 t = o1_9 V c t := by dsimp only [dat1]

/-- Block t of the rows' array is rows 2048 t … 2048 t + 2047 of the layer, and row r lies in block r / 2048. -/
theorem arr1_h (r : Fin 262144) (n : Fin 256) :
    (dat1 V c).arrAt 7 cfg1.N (ix2 r n) = Y1 V c r n :=
  congrFun ((dat1 V c).arrAt_eq_of_cover 7 (fun i => Y1 V c (i 0) (i 1)) (fun t _ => by
      show (cfg1.win 7).cut (grid1.coords t) ((dat1 V c).after 7 t) = _
      rw [after1_7]
      unfold o1_7 out1_7
      rw [View.canon_unit_zero hz2]
      refine funext fun (j : S2048x256.Idx) => ?_
      obtain ⟨p, q, rfl⟩ : ∃ (p : Fin 2048) (q : Fin 256), j = ix2 p q := ⟨j 0, j 1, eq_ix2 j⟩
      refine (y1_blk V c t p q).trans ?_
      rw [View.read_apply, emb1_7]
      rfl)
    fun (i : S262144x256.Idx) => by
      have hi : (i 0).val < 262144 := (i 0).isLt
      have ht : (i 0).val / 2048 < cfg1.N := by rw [show cfg1.N = 128 from N_1]; omega
      exact ⟨⟨_, ht⟩, flush1_7 _, Cert.Spec.mem_of_emb _ (ix2 (⟨(i 0).val % 2048, Nat.mod_lt _ (by norm_num)⟩ : Fin 2048) (i 1 : Fin 256))
        ((emb1_7 _ _ _).trans ((congrArg (ix2 · (i 1)) (Fin.ext (Nat.div_add_mod' (i 0).val 2048))).trans (eq_ix2 i).symm))⟩) (ix2 r n)

theorem s1_blk (k : Fin 256) :
    s1 (iblk1 V c 0 t) (iblk1 V c 1 t) (iblk1 V c 2 t) (iblk1 V c 3 t) (iblk1 V c 4 t) (iblk1 V c 5 t) (iblk1 V c 6 t) (ix1 k)
      = ∑ p : Fin 2048, Y1 V c ⟨t.val * 2048 + p.val, lt1 t p⟩ k := by
  unfold s1 k1_pay4
  exact (colsum_block _ _ _ _ k).trans (Finset.sum_congr rfl fun p _ => y1_blk V c t p k)

theorem q1_blk (k : Fin 256) :
    q1 (iblk1 V c 0 t) (iblk1 V c 1 t) (iblk1 V c 2 t) (iblk1 V c 3 t) (iblk1 V c 4 t) (iblk1 V c 5 t) (iblk1 V c 6 t) (ix1 k)
      = ∑ p : Fin 2048, Y1 V c ⟨t.val * 2048 + p.val, lt1 t p⟩ k * Y1 V c ⟨t.val * 2048 + p.val, lt1 t p⟩ k := by
  unfold q1 k1_pay5
  exact (colsum_block _ _ _ _ k).trans (Finset.sum_congr rfl fun p _ => congrArg (fun x => x * x) (y1_blk V c t p k))

/-- The running column sums reach the column sums over all rows at the last block. -/
theorem acc1_8_last (k : Fin 256) (m : ℕ) (hm : m < cfg1.N) (h : m = 127) :
    acc1_8 V c m hm (ix1 k) = Cert.Spec.colSum (Y1 V c) k := by
  subst h
  exact Cert.Spec.acc_total N_1 (fun r => Y1 V c r k) (fun m hm => acc1_8 V c m hm (ix1 k))
    (fun h => by rw [acc1_8]; unfold out1_8_A; rw [View.canon_unit_zero hz1]; exact s1_blk V c ⟨0, h⟩ k)
    (fun m h => by
      rw [acc1_8]; unfold out1_8_B k1_pay1
      rw [View.canon_unit_zero hz1]
      simp only [View.ld_unit_zero (S := S256) hz1, shapeCast_self]
      exact congrArg (_ + ·) (s1_blk V c ⟨m + 1, h⟩ k)) hm

theorem acc1_9_last (k : Fin 256) (m : ℕ) (hm : m < cfg1.N) (h : m = 127) :
    acc1_9 V c m hm (ix1 k) = Cert.Spec.colSumSq (Y1 V c) k := by
  subst h
  exact Cert.Spec.acc_total N_1 (fun r => Y1 V c r k * Y1 V c r k) (fun m hm => acc1_9 V c m hm (ix1 k))
    (fun h => by rw [acc1_9]; unfold out1_9_A; rw [View.canon_unit_zero hz1]; exact q1_blk V c ⟨0, h⟩ k)
    (fun m h => by
      rw [acc1_9]; unfold out1_9_B k1_pay2
      rw [View.canon_unit_zero hz1]
      simp only [View.ld_unit_zero (S := S256) hz1, shapeCast_self]
      exact congrArg (_ + ·) (q1_blk V c ⟨m + 1, h⟩ k)) hm

def tLast1 : Fin cfg1.N := ⟨127, by rw [show cfg1.N = 128 from N_1]; norm_num⟩

theorem emb1_8 (y : S256.Idx) : ((cfg1.win 8).blk t).view.emb y = y :=
  funext fun a => Fin.ext (Pipeline.Window.rect_emb_val_of_index_zero win1_8 t a ((idx1 t).2.2.2.2.2.2.2.2.1 a) y)

theorem arr1_sum (n : Fin 256) :
    (dat1 V c).arrAt 8 cfg1.N (ix1 n) = Cert.Spec.colSum (Y1 V c) n :=
  congrFun ((dat1 V c).arrAt_eq_of_cover 8 (fun i => Cert.Spec.colSum (Y1 V c) (i 0)) (fun t hf => by
      have h127 : t.val = 127 := by have := (flush1_8 t).mp hf; have := lt_of_lt_of_eq t.isLt N_1; omega
      show (cfg1.win 8).cut (grid1.coords t) ((dat1 V c).after 8 t) = _
      rw [after1_8]
      unfold o1_8
      refine funext fun (j : S256.Idx) => ?_
      obtain ⟨k, rfl⟩ : ∃ k : Fin 256, j = ix1 k := ⟨j 0, eq_ix1 j⟩
      rw [View.read_apply, cast_eq, emb1_8]
      exact acc1_8_last V c k _ _ h127)
    fun i => ⟨tLast1, (flush1_8 tLast1).mpr rfl, Cert.Spec.mem_of_emb _ i (emb1_8 _ i)⟩) (ix1 n)

theorem emb1_9 (y : S256.Idx) : ((cfg1.win 9).blk t).view.emb y = y :=
  funext fun a => Fin.ext (Pipeline.Window.rect_emb_val_of_index_zero win1_9 t a ((idx1 t).2.2.2.2.2.2.2.2.2 a) y)

theorem arr1_sumsq (n : Fin 256) :
    (dat1 V c).arrAt 9 cfg1.N (ix1 n) = Cert.Spec.colSumSq (Y1 V c) n :=
  congrFun ((dat1 V c).arrAt_eq_of_cover 9 (fun i => Cert.Spec.colSumSq (Y1 V c) (i 0)) (fun t hf => by
      have h127 : t.val = 127 := by have := (flush1_9 t).mp hf; have := lt_of_lt_of_eq t.isLt N_1; omega
      show (cfg1.win 9).cut (grid1.coords t) ((dat1 V c).after 9 t) = _
      rw [after1_9]
      unfold o1_9
      refine funext fun (j : S256.Idx) => ?_
      obtain ⟨k, rfl⟩ : ∃ k : Fin 256, j = ix1 k := ⟨j 0, eq_ix1 j⟩
      rw [View.read_apply, cast_eq, emb1_9]
      exact acc1_9_last V c k _ _ h127)
    fun i => ⟨tLast1, (flush1_9 tLast1).mpr rfl, Cert.Spec.mem_of_emb _ i (emb1_9 _ i)⟩) (ix1 n)

end Cert.KernelIdeal.Val

end
-- ==== Proof.KI.Val2.lean ====
import proofs.«426721_j37477884625195_1_alg».proof.Proof.KI.R2
import proofs.«426721_j37477884625195_1_alg».proof.Proof.SpecLemmas
import proofs.«426721_j37477884625195_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

theorem rows2_apply (x0 : Vec Ideal S2048x256 .f32) (x1 x2 x3 x4 : Vec Ideal S256 .f32) (x5 : Vec Ideal S256x128 .f32)
    (x6 : Vec Ideal S128 .f32) (p : Fin 2048) (n : Fin 128) :
    rows2 x0 x1 x2 x3 x4 x5 x6 (ix2 p n)
      = max ((∑ k : Fin 256, (x3 (ix1 k) * (x0 (ix2 p k) - x1 (ix1 k)) * Ideal.rsqrt (x2 (ix1 k) + Cert.Spec.cEps) + x4 (ix1 k))
            * x5 (ix2 k n)) + x6 (ix1 n)) 0 := by
  unfold rows2 k2_pay3
  simp only [shapeCast_self]
  rw [maximumf_apply, addf_apply, broadcast_apply, broadcastTo_1b_ab_apply, shapeCast_a_1a_apply]
  refine congrArg₂ max (congrArg (· + _) ((Cert.PlainMatmul.apply none _ _ p n).trans (Finset.sum_congr rfl fun k _ => ?_)))
    Ideal.ofBits_zero_f32
  simp only [truncf_apply, addf_apply, mulf_apply, subf_apply, broadcastTo_1b_ab_apply, shapeCast_a_1a_apply]
  rfl

theorem colsum2 (src : FVec Ideal S2048x128 .f32) (h : S2048x128.Reduces [0] S128) (hφ : FKind.Formats .f32)
    (hacc : (0x00000000#32 : BitVec 32) = FKind.add.neutral .f32 hφ) (n : Fin 128) :
    multiReduction .add [0] S128 src 0x00000000#32 h hφ hacc (ix1 n) = ∑ p : Fin 2048, src (ix2 p n) :=
  (Ideal.multiReduction_add_single src 0x00000000#32 h hφ hacc (ix1 n)).trans
    (Finset.sum_congr rfl fun p _ => congrArg src (eq_ix2 _))

variable (V : (c : Dev nD) → (b : Ref sig .tc) → Buf (Elt Ideal) ((c : Thread nD τ).loc b)) (c : Dev nD) (t : Fin cfg2.N)

theorem idx2 : ∀ t : Fin cfg2.N, win2_0.index t 0 = t.val ∧ win2_0.index t 1 = 0 ∧ win2_7.index t 0 = t.val ∧ win2_7.index t 1 = 0
    ∧ (∀ a, win2_1.index t a = 0) ∧ (∀ a, win2_2.index t a = 0) ∧ (∀ a, win2_3.index t a = 0) ∧ (∀ a, win2_4.index t a = 0)
    ∧ (∀ a, win2_5.index t a = 0) ∧ (∀ a, win2_6.index t a = 0) ∧ (∀ a, win2_8.index t a = 0) ∧ (∀ a, win2_9.index t a = 0) :=
  (by decide +kernel : ∀ t : Fin grid2.N, _)

theorem lt2 (p : Fin 2048) : t.val * 2048 + p.val < 262144 := by
  have := lt_of_lt_of_eq t.isLt N_2; have := p.isLt; omega

theorem blk2_1 : (iblk2 V c 1 t : Vec Ideal S256 .f32) = V c main_v9 :=
  Cert.Spec.read_whole (S := S256) (V c main_v9) ((cfg2.win 1).blk t).view.emb fun y a =>
    Pipeline.Window.rect_emb_val_of_index_zero win2_1 t a ((idx2 t).2.2.2.2.1 a) y
theorem blk2_2 : (iblk2 V c 2 t : Vec Ideal S256 .f32) = V c main_v13 :=
  Cert.Spec.read_whole (S := S256) (V c main_v13) ((cfg2.win 2).blk t).view.emb fun y a =>
    Pipeline.Window.rect_emb_val_of_index_zero win2_2 t a ((idx2 t).2.2.2.2.2.1 a) y
theorem blk2_3 : (iblk2 V c 3 t : Vec Ideal S256 .f32) = V c main_arg8 :=
  Cert.Spec.read_whole (S := S256) (V c main_arg8) ((cfg2.win 3).blk t).view.emb fun y a =>
    Pipeline.Window.rect_emb_val_of_index_zero win2_3 t a ((idx2 t).2.2.2.2.2.2.1 a) y
theorem blk2_4 : (iblk2 V c 4 t : Vec Ideal S256 .f32) = V c main_arg9 :=
  Cert.Spec.read_whole (S := S256) (V c main_arg9) ((cfg2.win 4).blk t).view.emb fun y a =>
    Pipeline.Window.rect_emb_val_of_index_zero win2_4 t a ((idx2 t).2.2.2.2.2.2.2.1 a) y
theorem blk2_5 : (iblk2 V c 5 t : Vec Ideal S256x128 .f32) = V c main_arg10 :=
  Cert.Spec.read_whole (S := S256x128) (V c main_arg10) ((cfg2.win 5).blk t).view.emb fun y a =>
    Pipeline.Window.rect_emb_val_of_index_zero win2_5 t a ((idx2 t).2.2.2.2.2.2.2.2.1 a) y
theorem blk2_6 : (iblk2 V c 6 t : Vec Ideal S128 .f32) = V c main_arg11 :=
  Cert.Spec.read_whole (S := S128) (V c main_arg11) ((cfg2.win 6).blk t).view.emb fun y a =>
    Pipeline.Window.rect_emb_val_of_index_zero win2_6 t a ((idx2 t).2.2.2.2.2.2.2.2.2.1 a) y

/-- Entry (p, k) of the block of rows at point t sits at row 2048 t + p of the array. -/
theorem emb2_0 (p : Fin 2048) (k : Fin 256) :
    ((cfg2.win 0).blk t).view.emb (ix2 p k) = ix2 ⟨t.val * 2048 + p.val, lt2 t p⟩ k := by
  obtain ⟨e0, e1, -⟩ := idx2 t
  refine funext fun a => Fin.ext ?_
  match a with
  | ⟨0, _⟩ => show win2_0.index t 0 * 2048 + 1 * p.val = t.val * 2048 + p.val; rw [e0]; omega
  | ⟨1, _⟩ => show win2_0.index t 1 * 256 + 1 * k.val = k.val; rw [e1]; omega

theorem emb2_7 (p : Fin 2048) (k : Fin 128) :
    ((cfg2.win 7).blk t).view.emb (ix2 p k) = ix2 ⟨t.val * 2048 + p.val, lt2 t p⟩ k := by
  obtain ⟨-, -, e0, e1, -⟩ := idx2 t
  refine funext fun a => Fin.ext ?_
  match a with
  | ⟨0, _⟩ => show win2_7.index t 0 * 2048 + 1 * p.val = t.val * 2048 + p.val; rw [e0]; omega
  | ⟨1, _⟩ => show win2_7.index t 1 * 128 + 1 * k.val = k.val; rw [e1]; omega

def Y2 : Fin 262144 → Fin 128 → EReal :=
  Cert.Spec.lin (Cert.Spec.bnWith (fun j => V c main_arg8 (ix1 j)) (fun j => V c main_arg9 (ix1 j)) (fun j => V c main_v9 (ix1 j))
    (fun j => V c main_v13 (ix1 j)) fun r j => V c main_v7_0 (ix2 r j)) (fun j n => V c main_arg10 (ix2 j n)) fun n => V c main_arg11 (ix1 n)

/-- Row p of the block computed at point t is row 2048 t + p of the layer. -/
theorem rows2_blk (p : Fin 2048) (n : Fin 128) :
    rows2 (iblk2 V c 0 t) (iblk2 V c 1 t) (iblk2 V c 2 t) (iblk2 V c 3 t) (iblk2 V c 4 t) (iblk2 V c 5 t) (iblk2 V c 6 t) (ix2 p n)
      = Y2 V c ⟨t.val * 2048 + p.val, lt2 t p⟩ n := by
  rw [rows2_apply, blk2_1, blk2_2, blk2_3, blk2_4, blk2_5, blk2_6]
  refine congrArg (max · 0) (congrArg (· + _) (Finset.sum_congr rfl fun k _ => ?_))
  rw [show (iblk2 V c 0 t : Vec Ideal S2048x256 .f32) (ix2 p k) = _ from congrArg (V c main_v7_0) (emb2_0 t p k)]
  rfl

/-- Block t of the rows' array is rows 2048 t … 2048 t + 2047 of the layer, and row r lies in block r / 2048. -/
theorem arr2_h (r : Fin 262144) (n : Fin 128) :
    (dat2 V c).arrAt 7 cfg2.N (ix2 r n) = Y2 V c r n :=
  congrFun ((dat2 V c).arrAt_eq_of_cover 7 (fun i => Y2 V c (i 0) (i 1)) (fun t _ => by
      show (cfg2.win 7).cut (grid2.coords t) ((dat2 V c).after 7 t) = _
      rw [after2_7]
      unfold o2_7
      refine funext fun (j : S2048x128.Idx) => ?_
      obtain ⟨p, q, rfl⟩ : ∃ (p : Fin 2048) (q : Fin 128), j = ix2 p q := ⟨j 0, j 1, eq_ix2 j⟩
      refine (rows2_blk V c t p q).trans ?_
      rw [View.read_apply, emb2_7]
      rfl)
    fun (i : S262144x128.Idx) => by
      have hi : (i 0).val < 262144 := (i 0).isLt
      have ht : (i 0).val / 2048 < cfg2.N := by rw [show cfg2.N = 128 from N_2]; omega
      exact ⟨⟨_, ht⟩, flush2_7 _, Cert.Spec.mem_of_emb _ (ix2 (⟨(i 0).val % 2048, Nat.mod_lt _ (by norm_num)⟩ : Fin 2048) (i 1 : Fin 128))
        ((emb2_7 _ _ _).trans ((congrArg (ix2 · (i 1)) (Fin.ext (Nat.div_add_mod' (i 0).val 2048))).trans (eq_ix2 i).symm))⟩) (ix2 r n)

theorem sums2_blk (k : Fin 128) :
    sums2 (iblk2 V c 0 t) (iblk2 V c 1 t) (iblk2 V c 2 t) (iblk2 V c 3 t) (iblk2 V c 4 t) (iblk2 V c 5 t) (iblk2 V c 6 t) (ix1 k)
      = ∑ p : Fin 2048, Y2 V c ⟨t.val * 2048 + p.val, lt2 t p⟩ k := by
  unfold sums2 k2_pay4
  exact (colsum2 _ _ _ _ k).trans (Finset.sum_congr rfl fun p _ => rows2_blk V c t p k)

theorem sqs2_blk (k : Fin 128) :
    sqs2 (iblk2 V c 0 t) (iblk2 V c 1 t) (iblk2 V c 2 t) (iblk2 V c 3 t) (iblk2 V c 4 t) (iblk2 V c 5 t) (iblk2 V c 6 t) (ix1 k)
      = ∑ p : Fin 2048, Y2 V c ⟨t.val * 2048 + p.val, lt2 t p⟩ k * Y2 V c ⟨t.val * 2048 + p.val, lt2 t p⟩ k := by
  unfold sqs2 k2_pay5
  exact (colsum2 _ _ _ _ k).trans (Finset.sum_congr rfl fun p _ => congrArg (fun x => x * x) (rows2_blk V c t p k))

/-- The running column sums reach the column sums over all rows at the last block. -/
theorem acc2_8_last (k : Fin 128) (m : ℕ) (hm : m < cfg2.N) (h : m = 127) :
    acc2_8 V c m hm (ix1 k) = Cert.Spec.colSum (Y2 V c) k := by
  subst h
  exact Cert.Spec.acc_total N_2 (fun r => Y2 V c r k) (fun m hm => acc2_8 V c m hm (ix1 k))
    (fun h => by rw [acc2_8]; exact sums2_blk V c ⟨0, h⟩ k)
    (fun m h => by
      rw [acc2_8]; unfold k2_pay1
      simp only [shapeCast_self]
      exact congrArg (_ + ·) (sums2_blk V c ⟨m + 1, h⟩ k)) hm

theorem acc2_9_last (k : Fin 128) (m : ℕ) (hm : m < cfg2.N) (h : m = 127) :
    acc2_9 V c m hm (ix1 k) = Cert.Spec.colSumSq (Y2 V c) k := by
  subst h
  exact Cert.Spec.acc_total N_2 (fun r => Y2 V c r k * Y2 V c r k) (fun m hm => acc2_9 V c m hm (ix1 k))
    (fun h => by rw [acc2_9]; exact sqs2_blk V c ⟨0, h⟩ k)
    (fun m h => by
      rw [acc2_9]; unfold k2_pay2
      simp only [shapeCast_self]
      exact congrArg (_ + ·) (sqs2_blk V c ⟨m + 1, h⟩ k)) hm

def tLast2 : Fin cfg2.N := ⟨127, by rw [show cfg2.N = 128 from N_2]; norm_num⟩

theorem emb2_8 (y : S128.Idx) : ((cfg2.win 8).blk t).view.emb y = y :=
  funext fun a => Fin.ext (Pipeline.Window.rect_emb_val_of_index_zero win2_8 t a ((idx2 t).2.2.2.2.2.2.2.2.2.2.1 a) y)

theorem arr2_sum (n : Fin 128) :
    (dat2 V c).arrAt 8 cfg2.N (ix1 n) = Cert.Spec.colSum (Y2 V c) n :=
  congrFun ((dat2 V c).arrAt_eq_of_cover 8 (fun i => Cert.Spec.colSum (Y2 V c) (i 0)) (fun t hf => by
      have h127 : t.val = 127 := by have := (flush2_8 t).mp hf; have := lt_of_lt_of_eq t.isLt N_2; omega
      show (cfg2.win 8).cut (grid2.coords t) ((dat2 V c).after 8 t) = _
      rw [after2_8]
      unfold o2_8
      refine funext fun (j : S128.Idx) => ?_
      obtain ⟨k, rfl⟩ : ∃ k : Fin 128, j = ix1 k := ⟨j 0, eq_ix1 j⟩
      rw [View.read_apply, cast_eq, emb2_8]
      exact acc2_8_last V c k _ _ h127)
    fun i => ⟨tLast2, (flush2_8 tLast2).mpr rfl, Cert.Spec.mem_of_emb _ i (emb2_8 _ i)⟩) (ix1 n)

theorem emb2_9 (y : S128.Idx) : ((cfg2.win 9).blk t).view.emb y = y :=
  funext fun a => Fin.ext (Pipeline.Window.rect_emb_val_of_index_zero win2_9 t a ((idx2 t).2.2.2.2.2.2.2.2.2.2.2 a) y)

theorem arr2_sumsq (n : Fin 128) :
    (dat2 V c).arrAt 9 cfg2.N (ix1 n) = Cert.Spec.colSumSq (Y2 V c) n :=
  congrFun ((dat2 V c).arrAt_eq_of_cover 9 (fun i => Cert.Spec.colSumSq (Y2 V c) (i 0)) (fun t hf => by
      have h127 : t.val = 127 := by have := (flush2_9 t).mp hf; have := lt_of_lt_of_eq t.isLt N_2; omega
      show (cfg2.win 9).cut (grid2.coords t) ((dat2 V c).after 9 t) = _
      rw [after2_9]
      unfold o2_9
      refine funext fun (j : S128.Idx) => ?_
      obtain ⟨k, rfl⟩ : ∃ k : Fin 128, j = ix1 k := ⟨j 0, eq_ix1 j⟩
      rw [View.read_apply, cast_eq, emb2_9]
      exact acc2_9_last V c k _ _ h127)
    fun i => ⟨tLast2, (flush2_9 tLast2).mpr rfl, Cert.Spec.mem_of_emb _ i (emb2_9 _ i)⟩) (ix1 n)

end Cert.KernelIdeal.Val

end
-- ==== Proof.KI.Val3.lean ====
import proofs.«426721_j37477884625195_1_alg».proof.Proof.KI.R3
import proofs.«426721_j37477884625195_1_alg».proof.Proof.Spec
import proofs.«426721_j37477884625195_1_alg».proof.Proof.SpecLemmas
import proofs.«426721_j37477884625195_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

theorem dot3_eq : dot_S2048x128_S128x1_S2048x1_1_0_0_1_n_n = DotDims.plain 2048 128 1 := rfl

theorem hz3_1 : (![0] : Fin 1 → Nat) = fun _ => 0 := funext fun a => by fin_cases a; rfl
theorem hz3_2 : (![0, 0] : Fin 2 → Nat) = fun _ => 0 := funext fun a => by fin_cases a <;> rfl

theorem out3_7_apply (x0 : Vec Ideal S2048x128 .f32) (x1 x2 x3 x4 : Vec Ideal S128 .f32) (x5 : Vec Ideal S128x1 .f32)
    (x6 : Vec Ideal S1 .f32) (j : S2048x1.Idx) :
    out3_7 x0 x1 x2 x3 x4 x5 x6 j
      = (∑ k : Fin 128, (x3 (ix1 k) * (x0 (ix2 (j 0) k) - x1 (ix1 k)) * Ideal.rsqrt (x2 (ix1 k) + Cert.Spec.cEps) + x4 (ix1 k))
            * x5 (ix2 k (0 : Fin 1))) + x6 (ix1 (0 : Fin 1)) := by
  obtain ⟨p, q, rfl⟩ : ∃ (p : Fin 2048) (q : Fin 1), j = ix2 p q := ⟨j 0, j 1, eq_ix2 j⟩
  obtain rfl : q = 0 := Subsingleton.elim _ _
  unfold out3_7 k3_pay1
  rw [View.canon_unit_zero hz3_2]
  simp only [View.ld_unit_zero (S := S2048x128) hz3_2, View.ld_unit_zero (S := S128) hz3_1,
    View.ld_unit_zero (S := S128x1) hz3_2, View.ld_unit_zero (S := S1) hz3_1, shapeCast_self]
  rw [addf_apply]
  congr 1
  · rw [dot3_eq]
    refine (Cert.PlainMatmul.apply none _ _ p (0 : Fin 1)).trans ?_
    refine Finset.sum_congr rfl fun k _ => ?_
    rw [truncf_apply, truncf_apply, addf_apply, mulf_apply, mulf_apply, subf_apply]
    rw [broadcastTo_1b_ab_apply, broadcastTo_1b_ab_apply, broadcastTo_1b_ab_apply, broadcastTo_1b_ab_apply]
    rw [shapeCast_a_1a_apply, shapeCast_a_1a_apply, shapeCast_a_1a_apply, shapeCast_a_1a_apply]
    rfl
  · rw [broadcastTo_1b_ab_apply, shapeCast_a_1a_apply]

variable (V : (c : Dev nD) → (b : Ref sig .tc) → Buf (Elt Ideal) ((c : Thread nD τ).loc b))

theorem idx3 : ∀ t : Fin cfg3.N, (win3_0.index t (0 : Fin 2) = t.val ∧ win3_0.index t (1 : Fin 2) = 0
      ∧ win3_7.index t (0 : Fin 2) = t.val ∧ win3_7.index t (1 : Fin 2) = 0)
    ∧ (∀ a, win3_1.index t a = 0) ∧ (∀ a, win3_2.index t a = 0) ∧ (∀ a, win3_3.index t a = 0)
    ∧ (∀ a, win3_4.index t a = 0) ∧ (∀ a, win3_5.index t a = 0) ∧ ∀ a, win3_6.index t a = 0 :=
  (by decide +kernel : ∀ t : Fin grid3.N, _)

theorem lt3 (t : Fin cfg3.N) (p : Fin 2048) : t.val * 2048 + p.val < 262144 := by
  have h : t.val < 128 := lt_of_lt_of_eq t.isLt N_3
  have := p.isLt; omega

theorem blk3_0_apply (c : Dev nD) (t : Fin cfg3.N) (p : Fin 2048) (k : Fin 128) :
    (iblk3 V c 0 t : Vec Ideal S2048x128 .f32) (ix2 p k) = V c main_v14_0 (ix2 ⟨t.val * 2048 + p.val, lt3 t p⟩ k) := by
  unfold iblk3
  rw [View.read_apply]
  show V c main_v14_0 _ = V c main_v14_0 _
  congr 1
  funext a
  apply Fin.ext
  obtain ⟨⟨e0, e1, -⟩, -⟩ := idx3 t
  match a with
  | ⟨0, _⟩ => show win3_0.index t 0 * 2048 + 1 * p.val = t.val * 2048 + p.val; rw [e0]; omega
  | ⟨1, _⟩ => show win3_0.index t 1 * 128 + 1 * k.val = k.val; rw [e1]; omega

theorem blk3_1 (c : Dev nD) (t : Fin cfg3.N) : (iblk3 V c 1 t : Vec Ideal S128 .f32) = V c main_v16 :=
  funext fun y => congrArg (V c main_v16) (funext fun a =>
    Fin.ext (win3_1.rect_emb_val_of_index_zero t a ((idx3 t).2.1 a) y))
theorem blk3_2 (c : Dev nD) (t : Fin cfg3.N) : (iblk3 V c 2 t : Vec Ideal S128 .f32) = V c main_v20 :=
  funext fun y => congrArg (V c main_v20) (funext fun a =>
    Fin.ext (win3_2.rect_emb_val_of_index_zero t a ((idx3 t).2.2.1 a) y))
theorem blk3_3 (c : Dev nD) (t : Fin cfg3.N) : (iblk3 V c 3 t : Vec Ideal S128 .f32) = V c main_arg12 :=
  funext fun y => congrArg (V c main_arg12) (funext fun a =>
    Fin.ext (win3_3.rect_emb_val_of_index_zero t a ((idx3 t).2.2.2.1 a) y))
theorem blk3_4 (c : Dev nD) (t : Fin cfg3.N) : (iblk3 V c 4 t : Vec Ideal S128 .f32) = V c main_arg13 :=
  funext fun y => congrArg (V c main_arg13) (funext fun a =>
    Fin.ext (win3_4.rect_emb_val_of_index_zero t a ((idx3 t).2.2.2.2.1 a) y))
theorem blk3_5 (c : Dev nD) (t : Fin cfg3.N) : (iblk3 V c 5 t : Vec Ideal S128x1 .f32) = V c main_arg14 :=
  funext fun y => congrArg (V c main_arg14) (funext fun a =>
    Fin.ext (win3_5.rect_emb_val_of_index_zero t a ((idx3 t).2.2.2.2.2.1 a) y))
theorem blk3_6 (c : Dev nD) (t : Fin cfg3.N) : (iblk3 V c 6 t : Vec Ideal S1 .f32) = V c main_arg15 :=
  funext fun y => congrArg (V c main_arg15) (funext fun a =>
    Fin.ext (win3_6.rect_emb_val_of_index_zero t a ((idx3 t).2.2.2.2.2.2 a) y))

abbrev O3 (c : Dev nD) : Fin 262144 → EReal :=
  Cert.Spec.out (Cert.Spec.bnWith (fun j => V c main_arg12 (ix1 j)) (fun j => V c main_arg13 (ix1 j))
    (fun j => V c main_v16 (ix1 j)) (fun j => V c main_v20 (ix1 j)) fun r j => V c main_v14_0 (ix2 r j))
    (fun j n => V c main_arg14 (ix2 j n)) fun n => V c main_arg15 (ix1 n)

def G3_7 (c : Dev nD) : S262144x1.Idx → EReal := fun i => O3 V c (i 0)

theorem G3_7_row (c : Dev nD) (i : S262144x1.Idx) (r : Fin 262144) (h : (i 0).val = r.val) : G3_7 V c i = O3 V c r :=
  congrArg (O3 V c) (Fin.ext h)

theorem flushed3_eq (c : Dev nD) (t : Fin cfg3.N) :
    (dat3 V c).flushed 7 t = ((cfg3.win 7).blk t).view.read (Elt Ideal) (G3_7 V c) := by
  show (cfg3.win 7).cut (grid3.coords t) ((dat3 V c).after 7 t) = _
  rw [after3_7]
  unfold o3_7
  rw [blk3_1, blk3_2, blk3_3, blk3_4, blk3_5, blk3_6]
  refine funext fun (j : S2048x1.Idx) => (out3_7_apply (iblk3 V c 0 t) _ _ _ _ _ _ j).trans ?_
  rw [View.read_apply]
  obtain ⟨⟨-, -, e0, -⟩, -⟩ := idx3 t
  refine Eq.trans ?_ (G3_7_row V c _ ⟨t.val * 2048 + (j 0).val, lt3 t (j 0)⟩ ?_).symm
  · unfold O3 Cert.Spec.out Cert.Spec.bnWith
    simp only [blk3_0_apply V c t (j 0)]
  · show win3_7.index t 0 * 2048 + 1 * (j 0).val = t.val * 2048 + (j 0).val
    rw [e0]; omega

theorem arr3_out (c : Dev nD) (r : Fin 262144) : (dat3 V c).arrAt 7 cfg3.N (ix2 r (0 : Fin 1)) = O3 V c r := by
  have ht : r.val / 2048 < cfg3.N := by rw [show cfg3.N = 128 from N_3]; have := r.isLt; omega
  obtain ⟨⟨-, -, e0, e1⟩, -⟩ := idx3 ⟨r.val / 2048, ht⟩
  have he : ((cfg3.win 7).blk ⟨r.val / 2048, ht⟩).view.emb (ix2 ⟨r.val % 2048, Nat.mod_lt _ (by decide)⟩ (0 : Fin 1))
      = ix2 r (0 : Fin 1) :=
    funext fun a => Fin.ext ((win3_7.rect_emb_val _ _ a).trans (by
      match a with
      | ⟨0, _⟩ => show win3_7.index _ (0 : Fin 2) * 2048 + r.val % 2048 = r.val; rw [e0]; exact Nat.div_add_mod' _ _
      | ⟨1, _⟩ => show win3_7.index _ (1 : Fin 2) * 1 + 0 = 0; rw [e1]))
  exact (dat3 V c).arrAt_apply_of_mem 7 (G3_7 V c) (fun t _ => flushed3_eq V c t) cfg3.N _ _ ht (flush3_7 _)
    (he ▸ View.emb_mem_set _ _)

end Cert.KernelIdeal.Val

end
-- ==== Proof.KI.Value.lean ====
import proofs.«426721_j37477884625195_1_alg».proof.Proof.KI.Run
import proofs.«426721_j37477884625195_1_alg».proof.Proof.KI.Mid
import proofs.«426721_j37477884625195_1_alg».proof.Proof.KI.Val0
import proofs.«426721_j37477884625195_1_alg».proof.Proof.KI.Val1
import proofs.«426721_j37477884625195_1_alg».proof.Proof.KI.Val2
import proofs.«426721_j37477884625195_1_alg».proof.Proof.KI.Val3

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

-- A normalised layer under any outer map depends only on its seven parts.
theorem bn_congr {N : ℕ} {α β γ : Type} (f : (Fin Spec.B → Fin N → EReal) → α → β → γ)
    {g g' be be' μ μ' v v' : Fin N → EReal} {H H' : Fin Spec.B → Fin N → EReal} {W W' : α} {b b' : β}
    (hg : g = g') (hbe : be = be') (hμ : μ = μ') (hv : v = v') (hH : H = H') (hW : W = W') (hb : b = b') :
    f (Spec.bnWith g be μ v H) W b = f (Spec.bnWith g' be' μ' v' H') W' b' := by
  subst hg hbe hμ hv hH hW hb; rfl

-- Dividing a layer's column sums and sums of squares by the row count gives its column means and variances.
theorem mean_var_of {N : ℕ} {Y Y' : Fin Spec.B → Fin N → EReal} {s q μ v : Fin N → EReal} (e : Y' = Y)
    (hs : ∀ n, s n = Spec.colSum Y' n) (hq : ∀ n, q n = Spec.colSumSq Y' n) (hμ : ∀ n, μ n = Ideal.div (s n) Spec.cB)
    (hv : ∀ n, v n = Ideal.div (q n) Spec.cB - Ideal.div (s n) Spec.cB * Ideal.div (s n) Spec.cB) :
    μ = Spec.mean Y ∧ v = Spec.var Y := by
  subst e; obtain rfl := funext hs; obtain rfl := funext hq; exact ⟨funext hμ, funext hv⟩

section
variable (V : (c : Dev nD) → (b : Ref sig .tc) → Buf (Elt Ideal) ((c : Thread nD τ).loc b)) (c : Dev nD)

abbrev L0 := Spec.h0 (X0 V c) (T0 V c) (W0 V c) (Bv0 V c)
abbrev L1 : Fin Spec.B → Fin 256 → EReal :=
  Spec.lin (Spec.bn (fun j => V c main_arg4 (ix1 j)) (fun j => V c main_arg5 (ix1 j)) (L0 V c))
    (fun k n => V c main_arg6 (ix2 k n)) fun n => V c main_arg7 (ix1 n)
abbrev L2 : Fin Spec.B → Fin 128 → EReal :=
  Spec.lin (Spec.bn (fun j => V c main_arg8 (ix1 j)) (fun j => V c main_arg9 (ix1 j)) (L1 V c))
    (fun k n => V c main_arg10 (ix2 k n)) fun n => V c main_arg11 (ix1 n)
end

variable (m : (ℓ : Loc nD τ sig) → Buf (Elt Ideal) ℓ) (ρ : Dev nD → PrngReg) (c : Dev nD)

abbrev Kept1 (K : Ref sig .tc) : Prop :=
  K ∉ hostOps1_W ∧ ∀ w, Pipeline.arrRef spec0 w = K → (cfg0.win w).isOut = false
abbrev Kept2 (K : Ref sig .tc) : Prop :=
  (K ∉ hostOps2_W ∧ ∀ w, Pipeline.arrRef spec1 w = K → (cfg1.win w).isOut = false) ∧ Kept1 K
abbrev Kept3 (K : Ref sig .tc) : Prop :=
  (K ∉ hostOps3_W ∧ ∀ w, Pipeline.arrRef spec2 w = K → (cfg2.win w).isOut = false) ∧ Kept2 K

theorem e1_arg (K : Ref sig .tc) (h : Kept1 K) : Ve1 m ρ c K = Ve0 m ρ c K :=
  (We1_keep m ρ c K h.1).trans (Wx0_keep m ρ c K h.2)
theorem e2_arg (K : Ref sig .tc) (h : Kept2 K) : Ve2 m ρ c K = Ve0 m ρ c K :=
  (We2_keep m ρ c K h.1.1).trans ((Wx1_keep m ρ c K h.1.2).trans (e1_arg m ρ c K h.2))
theorem e3_arg (K : Ref sig .tc) (h : Kept3 K) : Ve3 m ρ c K = Ve0 m ρ c K :=
  (We3_keep m ρ c K h.1.1).trans ((Wx2_keep m ρ c K h.1.2).trans (e2_arg m ρ c K h.2))

variable (hx : ∀ b t, (X0 (Ve0 m ρ) c b t).toNat < 512)
include hx

theorem Y1_eq : Y1 (Ve1 m ρ) c = L1 (Ve0 m ρ) c :=
  have mv := mean_var_of rfl
    (fun n => (congrFun (Wx0_arr m ρ c 5) (ix1 n)).trans (arr0_sum (Ve0 m ρ) c hx n))
    (fun n => (congrFun (Wx0_arr m ρ c 6) (ix1 n)).trans (arr0_sumsq (Ve0 m ρ) c hx n)) (mid1_mean (Wx0 m ρ c)) (mid1_var (Wx0 m ρ c))
  bn_congr Spec.lin
    (funext fun j => congrFun (e1_arg m ρ c main_arg4 (by decide)) (ix1 j))
    (funext fun j => congrFun (e1_arg m ρ c main_arg5 (by decide)) (ix1 j)) mv.1 mv.2
    (funext fun r => funext fun j => (congrFun (We1_keep m ρ c main_v0_0 (by decide)) (ix2 r j)).trans
      ((congrFun (Wx0_arr m ρ c 4) (ix2 r j)).trans (arr0_h (Ve0 m ρ) c hx r j)))
    (funext fun a => funext fun n => congrFun (e1_arg m ρ c main_arg6 (by decide)) (ix2 a n))
    (funext fun n => congrFun (e1_arg m ρ c main_arg7 (by decide)) (ix1 n))

theorem Y2_eq : Y2 (Ve2 m ρ) c = L2 (Ve0 m ρ) c :=
  have mv := mean_var_of (Y1_eq m ρ c hx)
    (fun n => (congrFun (Wx1_arr m ρ c 8) (ix1 n)).trans (arr1_sum (Ve1 m ρ) c n))
    (fun n => (congrFun (Wx1_arr m ρ c 9) (ix1 n)).trans (arr1_sumsq (Ve1 m ρ) c n)) (mid2_mean (Wx1 m ρ c)) (mid2_var (Wx1 m ρ c))
  bn_congr Spec.lin
    (funext fun j => congrFun (e2_arg m ρ c main_arg8 (by decide)) (ix1 j))
    (funext fun j => congrFun (e2_arg m ρ c main_arg9 (by decide)) (ix1 j)) mv.1 mv.2
    (funext fun r => funext fun j => (congrFun (We2_keep m ρ c main_v7_0 (by decide)) (ix2 r j)).trans
      ((congrFun (Wx1_arr m ρ c 7) (ix2 r j)).trans ((arr1_h (Ve1 m ρ) c r j).trans (congrFun (congrFun (Y1_eq m ρ c hx) r) j))))
    (funext fun a => funext fun n => congrFun (e2_arg m ρ c main_arg10 (by decide)) (ix2 a n))
    (funext fun n => congrFun (e2_arg m ρ c main_arg11 (by decide)) (ix1 n))

omit hx in
theorem kernel_val
    (hx : ∀ (b : Fin 262144) (t : Fin 17), (m ((c.tc : Thread nD τ).loc main_arg0) (ValueIdx.ix2 b t)).toNat < 512)
    (r : Fin 262144) :
    (dat3 (Ve3 m ρ) c).arrAt 7 cfg3.N (ValueIdx.ix2 r (0 : Fin 1))
      = Cert.Spec.G (fun b t => m ((c.tc : Thread nD τ).loc main_arg0) (ValueIdx.ix2 b t))
        (fun t q e => m ((c.tc : Thread nD τ).loc main_arg1) (ValueIdx.ix3 t q e))
        (fun k n => m ((c.tc : Thread nD τ).loc main_arg2) (ValueIdx.ix2 k n))
        (fun n => m ((c.tc : Thread nD τ).loc main_arg3) (ValueIdx.ix1 n))
        (fun n => m ((c.tc : Thread nD τ).loc main_arg4) (ValueIdx.ix1 n))
        (fun n => m ((c.tc : Thread nD τ).loc main_arg5) (ValueIdx.ix1 n))
        (fun k n => m ((c.tc : Thread nD τ).loc main_arg6) (ValueIdx.ix2 k n))
        (fun n => m ((c.tc : Thread nD τ).loc main_arg7) (ValueIdx.ix1 n))
        (fun n => m ((c.tc : Thread nD τ).loc main_arg8) (ValueIdx.ix1 n))
        (fun n => m ((c.tc : Thread nD τ).loc main_arg9) (ValueIdx.ix1 n))
        (fun k n => m ((c.tc : Thread nD τ).loc main_arg10) (ValueIdx.ix2 k n))
        (fun n => m ((c.tc : Thread nD τ).loc main_arg11) (ValueIdx.ix1 n))
        (fun n => m ((c.tc : Thread nD τ).loc main_arg12) (ValueIdx.ix1 n))
        (fun n => m ((c.tc : Thread nD τ).loc main_arg13) (ValueIdx.ix1 n))
        (fun k n => m ((c.tc : Thread nD τ).loc main_arg14) (ValueIdx.ix2 k n))
        (fun n => m ((c.tc : Thread nD τ).loc main_arg15) (ValueIdx.ix1 n)) r :=
  have mv := mean_var_of (Y2_eq m ρ c hx)
    (fun n => (congrFun (Wx2_arr m ρ c 8) (ix1 n)).trans (arr2_sum (Ve2 m ρ) c n))
    (fun n => (congrFun (Wx2_arr m ρ c 9) (ix1 n)).trans (arr2_sumsq (Ve2 m ρ) c n)) (mid3_mean (Wx2 m ρ c)) (mid3_var (Wx2 m ρ c))
  (arr3_out (Ve3 m ρ) c r).trans (congrFun (bn_congr Spec.out
    (funext fun j => congrFun (e3_arg m ρ c main_arg12 (by decide)) (ix1 j))
    (funext fun j => congrFun (e3_arg m ρ c main_arg13 (by decide)) (ix1 j)) mv.1 mv.2
    (funext fun r => funext fun j => (congrFun (We3_keep m ρ c main_v14_0 (by decide)) (ix2 r j)).trans
      ((congrFun (Wx2_arr m ρ c 7) (ix2 r j)).trans ((arr2_h (Ve2 m ρ) c r j).trans (congrFun (congrFun (Y2_eq m ρ c hx) r) j))))
    (funext fun a => funext fun n => congrFun (e3_arg m ρ c main_arg14 (by decide)) (ix2 a n))
    (funext fun n => congrFun (e3_arg m ρ c main_arg15 (by decide)) (ix1 n))) r)

end Cert.KernelIdeal.Val

end
-- ==== Proof.Ref.Term.lean ====
import proofs.«426721_j37477884625195_1_alg».proof.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Facts] {B K N : Nat}

/-- A scalar is laid over any shape, -/
theorem bcS (t : Shape) : S_.BroadcastsInDim t ![] := ⟨fun a => a.elim0, fun a => a.elim0⟩

/-- a vector along one row, -/
theorem bcRow (N : Nat) : (⟨1, ![N]⟩ : Shape).BroadcastsInDim ⟨2, ![1, N]⟩ ![1] :=
  ⟨fun a b _ => Subsingleton.elim a b, fun a => Or.inr (by match a with | ⟨0, _⟩ => rfl)⟩

/-- one row down all the rows; -/
theorem bcDown (B N : Nat) : (⟨2, ![1, N]⟩ : Shape).BroadcastsInDim ⟨2, ![B, N]⟩ ![0, 1] :=
  ⟨show Function.Injective (![0, 1] : Fin 2 → Fin 2) by decide, fun a => by
    match a with
    | ⟨0, _⟩ => exact Or.inl rfl
    | ⟨1, _⟩ => exact Or.inr rfl⟩

/-- summing over the rows leaves the columns. -/
theorem redRows (B N : Nat) : (⟨2, ![B, N]⟩ : Shape).ReducesTo [0] ⟨1, ![N]⟩ :=
  ⟨rfl, fun b => by match b with | ⟨0, _⟩ => rfl⟩

/-- An index moved up by `c` where it is negative. -/
def wrapT {s : Shape} (c : BitVec 32) (a : IVec s 32) : IVec s 32 :=
  select (cmpi .slt a (broadcastInDim s ![] (bcS s) (constantI S_ 32 0#32))) (addi a (broadcastInDim s ![] (bcS s) (constantI S_ 32 c))) a

/-- The pairs (table number, row index) the lookup reads at. -/
def idxT (a0 : IVec S262144x17 32) : IVec S262144x17x2 32 :=
  concatenate S262144x17x2 2
    [⟨S262144x17x1, broadcastInDim S262144x17x1 ![0, 1] bcast_S262144x17_S262144x17x1_0_1
      (broadcastInDim S262144x17 ![1] bcast_S17_S262144x17_1 (wrapT 17#32 (iotaInDim S17 32 0)))⟩,
     ⟨S262144x17x1, broadcastInDim S262144x17x1 ![0, 1] bcast_S262144x17_S262144x17x1_0_1 (wrapT 512#32 a0)⟩]
    concatenates_S262144x17x1_S262144x17x1_S262144x17x2_d2

/-- The seventeen looked-up rows of sixteen, side by side. -/
def embT (a0 : (⟨S262144x17, .i32⟩ : BufTy).Contents (Elt F)) (a1 : (⟨S17x512x16, .f32⟩ : BufTy).Contents (Elt F)) : (⟨S262144x272, .f32⟩ : BufTy).Contents (Elt F) :=
  shapeCast S262144x272 (Host.gather gather_S17x512x16_S262144x17x2_S262144x17x16_2_01_n_n_01_2_1116 a1 (idxT a0)) shapeCasts_S262144x17x16_S262144x272

/-- A vector repeated down the rows. -/
def rowT (x : FVec F ⟨1, ![N]⟩ .f32) : FVec F ⟨2, ![B, N]⟩ .f32 :=
  broadcastInDim _ ![0, 1] (bcDown B N) (broadcastInDim _ ![1] (bcRow N) x)

/-- A linear map and its bias. -/
def affT (h : FVec F ⟨2, ![B, K]⟩ .f32) (W : FVec F ⟨2, ![K, N]⟩ .f32) (b : FVec F ⟨1, ![N]⟩ .f32) : FVec F ⟨2, ![B, N]⟩ .f32 :=
  addf (Host.dotGeneral (DotDims.plain B K N) none h W) (rowT b)

/-- A linear map, its bias and the positive part. -/
def linT (h : FVec F ⟨2, ![B, K]⟩ .f32) (W : FVec F ⟨2, ![K, N]⟩ .f32) (b : FVec F ⟨1, ![N]⟩ .f32) : FVec F ⟨2, ![B, N]⟩ .f32 :=
  maximumf (affT h W b) (broadcastInDim _ ![] (bcS _) (constant S_ .f32 0x00000000#32))

/-- The column sums. -/
def sumT (h : FVec F ⟨2, ![B, N]⟩ .f32) : FVec F ⟨1, ![N]⟩ .f32 :=
  Host.reduceAdd h (constant S_ .f32 0x00000000#32) (redRows B N) h_S_

def meanT (h : FVec F ⟨2, ![B, N]⟩ .f32) : FVec F ⟨1, ![N]⟩ .f32 :=
  Host.divf (sumT h) (broadcastInDim _ ![] (bcS _) (constant S_ .f32 0x48800000#32))

/-- The variance's divisor: the row count less the correction 0. -/
def ddofT : FVec F S_ .f32 :=
  subf (constant S_ .f32 0x48800000#32) (sitofp .f32 (constantI S_ 32 0#32))

/-- The deviations from the column means. -/
def devT (h : FVec F ⟨2, ![B, N]⟩ .f32) : FVec F ⟨2, ![B, N]⟩ .f32 :=
  subf h (broadcastInDim _ ![0, 1] (bcDown B N)
    (Host.divf (broadcastInDim _ ![1] (bcRow N) (sumT h)) (broadcastInDim _ ![] (bcS _) (constant S_ .f32 0x48800000#32))))

/-- The mean of the squared deviations, kept where the divisor is positive. -/
def varT (h : FVec F ⟨2, ![B, N]⟩ .f32) : FVec F ⟨1, ![N]⟩ .f32 :=
  select (broadcastInDim _ ![] (bcS _) (cmpf .ogt (ddofT (F := F)) (constant S_ .f32 0x00000000#32)))
    (Host.divf (sumT (mulf (devT h) (devT h))) (broadcastInDim _ ![] (bcS _) ddofT))
    (broadcastInDim _ ![] (bcS _) (constant S_ .f32 0x7FC00000#32))

/-- Scale times deviation times the reciprocal root of variance plus the small constant, plus shift. -/
def normT (g be : FVec F ⟨1, ![N]⟩ .f32) (h : FVec F ⟨2, ![B, N]⟩ .f32) (mu va : FVec F ⟨1, ![N]⟩ .f32) : FVec F ⟨2, ![B, N]⟩ .f32 :=
  addf (mulf (mulf (rowT g) (subf h (rowT mu)))
    (rowT (Host.rsqrt (addf va (broadcastInDim _ ![] (bcS _) (constant S_ .f32 0x3727C5AC#32)))))) (rowT be)

def lin0T (h : (⟨S262144x272, .f32⟩ : BufTy).Contents (Elt F)) (W : (⟨S272x256, .f32⟩ : BufTy).Contents (Elt F)) (b : (⟨S256, .f32⟩ : BufTy).Contents (Elt F)) : (⟨S262144x256, .f32⟩ : BufTy).Contents (Elt F) :=
  linT h W b

def lin1T (h : (⟨S262144x256, .f32⟩ : BufTy).Contents (Elt F)) (W : (⟨S256x256, .f32⟩ : BufTy).Contents (Elt F)) (b : (⟨S256, .f32⟩ : BufTy).Contents (Elt F)) : (⟨S262144x256, .f32⟩ : BufTy).Contents (Elt F) :=
  linT h W b

def lin2T (h : (⟨S262144x256, .f32⟩ : BufTy).Contents (Elt F)) (W : (⟨S256x128, .f32⟩ : BufTy).Contents (Elt F)) (b : (⟨S128, .f32⟩ : BufTy).Contents (Elt F)) : (⟨S262144x128, .f32⟩ : BufTy).Contents (Elt F) :=
  linT h W b

def meanT256 (h : (⟨S262144x256, .f32⟩ : BufTy).Contents (Elt F)) : (⟨S256, .f32⟩ : BufTy).Contents (Elt F) :=
  meanT h

def meanT128 (h : (⟨S262144x128, .f32⟩ : BufTy).Contents (Elt F)) : (⟨S128, .f32⟩ : BufTy).Contents (Elt F) :=
  meanT h

def varT256 (h : (⟨S262144x256, .f32⟩ : BufTy).Contents (Elt F)) : (⟨S256, .f32⟩ : BufTy).Contents (Elt F) :=
  varT h

def varT128 (h : (⟨S262144x128, .f32⟩ : BufTy).Contents (Elt F)) : (⟨S128, .f32⟩ : BufTy).Contents (Elt F) :=
  varT h

def normT256 (g be : (⟨S256, .f32⟩ : BufTy).Contents (Elt F)) (h : (⟨S262144x256, .f32⟩ : BufTy).Contents (Elt F)) (mu va : (⟨S256, .f32⟩ : BufTy).Contents (Elt F)) : (⟨S262144x256, .f32⟩ : BufTy).Contents (Elt F) :=
  normT g be h mu va

def normT128 (g be : (⟨S128, .f32⟩ : BufTy).Contents (Elt F)) (h : (⟨S262144x128, .f32⟩ : BufTy).Contents (Elt F)) (mu va : (⟨S128, .f32⟩ : BufTy).Contents (Elt F)) : (⟨S262144x128, .f32⟩ : BufTy).Contents (Elt F) :=
  normT g be h mu va

def bnT256 (g be : (⟨S256, .f32⟩ : BufTy).Contents (Elt F)) (h : (⟨S262144x256, .f32⟩ : BufTy).Contents (Elt F)) : (⟨S262144x256, .f32⟩ : BufTy).Contents (Elt F) :=
  normT256 g be h (meanT256 h) (varT256 h)

def bnT128 (g be : (⟨S128, .f32⟩ : BufTy).Contents (Elt F)) (h : (⟨S262144x128, .f32⟩ : BufTy).Contents (Elt F)) : (⟨S262144x128, .f32⟩ : BufTy).Contents (Elt F) :=
  normT128 g be h (meanT128 h) (varT128 h)

def outT (h : (⟨S262144x128, .f32⟩ : BufTy).Contents (Elt F)) (W : (⟨S128x1, .f32⟩ : BufTy).Contents (Elt F)) (b : (⟨S1, .f32⟩ : BufTy).Contents (Elt F)) : (⟨S262144x1, .f32⟩ : BufTy).Contents (Elt F) :=
  affT h W b

/-- The reference's result, of its sixteen arguments. -/
def res (a0 : (⟨S262144x17, .i32⟩ : BufTy).Contents (Elt F)) (a1 : (⟨S17x512x16, .f32⟩ : BufTy).Contents (Elt F)) (a2 : (⟨S272x256, .f32⟩ : BufTy).Contents (Elt F)) (a3 a4 a5 : (⟨S256, .f32⟩ : BufTy).Contents (Elt F))
    (a6 : (⟨S256x256, .f32⟩ : BufTy).Contents (Elt F)) (a7 a8 a9 : (⟨S256, .f32⟩ : BufTy).Contents (Elt F)) (a10 : (⟨S256x128, .f32⟩ : BufTy).Contents (Elt F)) (a11 a12 a13 : (⟨S128, .f32⟩ : BufTy).Contents (Elt F))
    (a14 : (⟨S128x1, .f32⟩ : BufTy).Contents (Elt F)) (a15 : (⟨S1, .f32⟩ : BufTy).Contents (Elt F)) : (⟨S262144x1, .f32⟩ : BufTy).Contents (Elt F) :=
  outT (bnT128 a12 a13 (lin2T (bnT256 a8 a9 (lin1T (bnT256 a4 a5 (lin0T (embT a0 a1) a2 a3)) a6 a7)) a10 a11)) a14 a15

end Cert.ReferenceIdeal.Hand

end
-- ==== Proof.Ref.Run.lean ====
import proofs.«426721_j37477884625195_1_alg».proof.ReferenceIdeal
import proofs.«426721_j37477884625195_1_alg».proof.Proof.Ref.Term
import Idealize.ShloMosaic.Lib.StableHlo.Run
import Idealize.ShloMosaic.Lib.Pipeline.Frame

noncomputable section

namespace Cert.ReferenceIdeal.Hand

open Cert.ReferenceIdeal Idealize.ShloMosaic Idealize.SL.Sem
open Cert.ReferenceIdeal.Facts₀ Cert.ReferenceIdeal.Facts
open Idealize.ShloMosaic.TcCoe Idealize.ShloMosaic.StableHlo

variable {F : FTy → Type} [FloatOps F] [Facts]

/-- The operations write, one each and in order, the references `W`, and determine all they write. -/
abbrev Writes (ops : List (HloOp τ sig (Elt F))) (W : List (Ref sig .tc)) : Prop :=
  List.Forall₂ (fun op y => op.writes = {Proc.devRef .tc y} ∧ op.fresh = ∅) ops W

/-- A reference outside `W` keeps its contents: no operation writes it. -/
theorem keep {ops : List (HloOp τ sig (Elt F))} {W : List (Ref sig .tc)} (h : Writes ops W) (V : Valuation τ sig (Elt F))
    {r : Ref sig .tc} (hr : r ∉ W) : after ops V (no_index (Proc.devRef .tc r)) = V (Proc.devRef .tc r) := by
  induction h generalizing V with
  | nil => rfl
  | cons hw _ ih =>
    rw [after_cons, ih _ fun m => hr (.tail _ m), HloOp.result_of_not_mem]
    rw [hw.1, Finset.mem_singleton]
    exact devRef_ne_of_ne fun e => hr (e ▸ .head _)

theorem fresh_of {ops : List (HloOp τ sig (Elt F))} {W : List (Ref sig .tc)} (h : Writes ops W) : ∀ op ∈ ops, op.fresh = ∅ := by
  induction h with
  | nil => exact fun _ h => nomatch h
  | cons hw _ ih => exact List.forall_mem_cons.mpr ⟨hw.2, ih⟩

/-- The variance of the columns of `x`, with the correction `c`, computed into the references `φ`. -/
def opsVar (x : TRef sig ⟨S262144x256, .f32⟩) (c : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S262144x256_S256_d0 h_S_),
    TRef.unary φ.v0 φ.v1 (broadcastInDim S1x256 ![1] bcast_S256_S1x256_1),
    TRef.nullary φ.cst_0 (constant S_ .f32 0x48800000#32),
    TRef.unary φ.cst_0 φ.v2 (broadcastInDim S1x256 ![] bcast_S_S1x256),
    TRef.binary φ.v1 φ.v2 φ.v3 Host.divf,
    TRef.unary φ.v3 φ.v4 (broadcastInDim S262144x256 ![0, 1] bcast_S1x256_S262144x256_0_1),
    TRef.binary x φ.v4 φ.v5 subf,
    TRef.binary φ.v5 φ.v5 φ.v6 mulf,
    TRef.unary c φ.v7 (sitofp .f32),
    TRef.nullary φ.cst_1 (constant S_ .f32 0x48800000#32),
    TRef.binary φ.cst_1 φ.v7 φ.v8 subf,
    TRef.nullary φ.cst_2 (constant S_ .f32 0x00000000#32),
    TRef.binary φ.v6 φ.cst_2 φ.v9 (fun x v => Host.reduceAdd x v reducesTo_S262144x256_S256_d0 h_S_),
    TRef.unary φ.v8 φ.v10 (broadcastInDim S256 ![] bcast_S_S256),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S256 ![] bcast_S_S256),
    TRef.ternary φ.v12 φ.v11 φ.call0.v1 φ.call0.v2 (fun p a b => select (broadcastInDim S256 ![] bcast_S_S256 p) a b) ]

abbrev wVar (φ : fn_var.Bufs) : List (Ref sig .tc) := [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.cst_3.ref, φ.v12.ref, φ.cst_4.ref, φ.call0.v0.ref, φ.call0.v1.ref, φ.call0.v2.ref]

theorem w_var (x c φ) : Writes (opsVar (F := F) x c φ) (wVar φ) := by repeat constructor

def opsEmb : List (HloOp τ sig (Elt F)) :=
  [ nullary main_v0 (iotaInDim S17 32 0),
    nullary main_c (constantI S_ 32 0#32),
    unary main_c main_v1 (broadcastInDim S17 ![] bcast_S_S17),
    binary main_v0 main_v1 main_v2 (cmpi .slt),
    nullary main_c_0 (constantI S_ 32 17#32),
    unary main_c_0 main_v3 (broadcastInDim S17 ![] bcast_S_S17),
    binary main_v0 main_v3 main_v4 addi,
    ternary main_v2 main_v4 main_v0 main_v5 select,
    nullary main_c_1 (constantI S_ 32 0#32),
    unary main_c_1 main_v6 (broadcastInDim S262144x17 ![] bcast_S_S262144x17),
    binary main_arg0 main_v6 main_v7 (cmpi .slt),
    nullary main_c_2 (constantI S_ 32 512#32),
    unary main_c_2 main_v8 (broadcastInDim S262144x17 ![] bcast_S_S262144x17),
    binary main_arg0 main_v8 main_v9 addi,
    ternary main_v7 main_v9 main_arg0 main_v10 select,
    unary main_v5 main_v11 (broadcastInDim S262144x17 ![1] bcast_S17_S262144x17_1),
    unary main_v11 main_v12 (broadcastInDim S262144x17x1 ![0, 1] bcast_S262144x17_S262144x17x1_0_1),
    unary main_v10 main_v13 (broadcastInDim S262144x17x1 ![0, 1] bcast_S262144x17_S262144x17x1_0_1),
    binary main_v12 main_v13 main_v14 (fun a b => concatenate S262144x17x2 2 [⟨S262144x17x1, a⟩, ⟨S262144x17x1, b⟩] concatenates_S262144x17x1_S262144x17x1_S262144x17x2_d2),
    binary main_arg1 main_v14 main_v15 (fun x i => Host.gather gather_S17x512x16_S262144x17x2_S262144x17x16_2_01_n_n_01_2_1116 x i),
    reshape main_v15 main_v16 rfl shapeCasts_S262144x17x16_S262144x272 ]

abbrev W_Emb : List (Ref sig .tc) := [main_v0, main_c, main_v1, main_v2, main_c_0, main_v3, main_v4, main_v5, main_c_1, main_v6, main_v7, main_c_2, main_v8, main_v9, main_v10, main_v11, main_v12, main_v13, main_v14, main_v15, main_v16]

theorem w_emb : Writes (opsEmb (F := F)) W_Emb := by repeat constructor

theorem stage_emb (V : Valuation τ sig (Elt F)) :
    after opsEmb V (no_index (Proc.devRef .tc main_v16)) = embT (V (Proc.devRef .tc main_arg0)) (V (Proc.devRef .tc main_arg1)) := by
  simp only [opsEmb]
  after_results_simp
  rfl

def opsLin0 : List (HloOp τ sig (Elt F)) :=
  [ binary main_v16 main_arg2 main_v17 (fun l r => Host.dotGeneral dot_S262144x272_S272x256_S262144x256_1_0_0_1_n_n none l r),
    unary main_arg3 main_v18 (broadcastInDim S1x256 ![1] bcast_S256_S1x256_1),
    unary main_v18 main_v19 (broadcastInDim S262144x256 ![0, 1] bcast_S1x256_S262144x256_0_1),
    binary main_v17 main_v19 main_v20 addf,
    TRef.nullary main_call0.cst (constant S_ .f32 0x00000000#32),
    TRef.unary main_call0.cst main_call0.v0 (broadcastInDim S262144x256 ![] bcast_S_S262144x256),
    TRef.binary (TRef.of (T := ⟨S262144x256, .f32⟩) main_v20) main_call0.v0 main_call0.v1 maximumf ]

abbrev W_Lin0 : List (Ref sig .tc) := [main_v17, main_v18, main_v19, main_v20, main_call0.cst.ref, main_call0.v0.ref, main_call0.v1.ref]

theorem w_lin0 : Writes (opsLin0 (F := F)) W_Lin0 := by repeat constructor

theorem stage_lin0 (V : Valuation τ sig (Elt F)) :
    after opsLin0 V (no_index (Proc.devRef .tc main_v21)) = lin0T (V (Proc.devRef .tc main_v16)) (V (Proc.devRef .tc main_arg2)) (V (Proc.devRef .tc main_arg3)) := by
  simp only [opsLin0]
  after_results_simp
  rfl

def opsMean0 : List (HloOp τ sig (Elt F)) :=
  [ nullary main_cst (constant S_ .f32 0x00000000#32),
    binary main_v21 main_cst main_v22 (fun x v => Host.reduceAdd x v reducesTo_S262144x256_S256_d0 h_S_),
    nullary main_cst_3 (constant S_ .f32 0x48800000#32),
    unary main_cst_3 main_v23 (broadcastInDim S256 ![] bcast_S_S256),
    binary main_v22 main_v23 main_v24 Host.divf ]

abbrev W_Mean0 : List (Ref sig .tc) := [main_cst, main_v22, main_cst_3, main_v23, main_v24]

theorem w_mean0 : Writes (opsMean0 (F := F)) W_Mean0 := by repeat constructor

theorem stage_mean0 (V : Valuation τ sig (Elt F)) :
    after opsMean0 V (no_index (Proc.devRef .tc main_v24)) = meanT256 (V (Proc.devRef .tc main_v21)) := by
  simp only [opsMean0]
  after_results_simp
  rfl

def opsVar0 : List (HloOp τ sig (Elt F)) :=
  nullary main_c_4 (constantI S_ 32 0#32) :: opsVar (.of main_v21) (.of main_c_4) main_call1

abbrev W_Var0 : List (Ref sig .tc) := main_c_4 :: wVar main_call1

theorem w_var0 : Writes (opsVar0 (F := F)) W_Var0 := .cons ⟨rfl, rfl⟩ (w_var ..)

theorem stage_var0 (V : Valuation τ sig (Elt F)) :
    after opsVar0 V (no_index (Proc.devRef .tc main_v25)) = varT256 (V (Proc.devRef .tc main_v21)) := by
  simp only [opsVar0, opsVar]
  after_results_simp
  rfl

def opsNorm0 : List (HloOp τ sig (Elt F)) :=
  [ unary main_v24 main_v26 (broadcastInDim S1x256 ![1] bcast_S256_S1x256_1),
    unary main_v26 main_v27 (broadcastInDim S262144x256 ![0, 1] bcast_S1x256_S262144x256_0_1),
    binary main_v21 main_v27 main_v28 subf,
    unary main_arg4 main_v29 (broadcastInDim S1x256 ![1] bcast_S256_S1x256_1),
    unary main_v29 main_v30 (broadcastInDim S262144x256 ![0, 1] bcast_S1x256_S262144x256_0_1),
    binary main_v30 main_v28 main_v31 mulf,
    nullary main_cst_5 (constant S_ .f32 0x3727C5AC#32),
    unary main_cst_5 main_v32 (broadcastInDim S256 ![] bcast_S_S256),
    binary main_v25 main_v32 main_v33 addf,
    unary main_v33 main_v34 Host.rsqrt,
    unary main_v34 main_v35 (broadcastInDim S1x256 ![1] bcast_S256_S1x256_1),
    unary main_v35 main_v36 (broadcastInDim S262144x256 ![0, 1] bcast_S1x256_S262144x256_0_1),
    binary main_v31 main_v36 main_v37 mulf,
    unary main_arg5 main_v38 (broadcastInDim S1x256 ![1] bcast_S256_S1x256_1),
    unary main_v38 main_v39 (broadcastInDim S262144x256 ![0, 1] bcast_S1x256_S262144x256_0_1),
    binary main_v37 main_v39 main_v40 addf ]

abbrev W_Norm0 : List (Ref sig .tc) := [main_v26, main_v27, main_v28, main_v29, main_v30, main_v31, main_cst_5, main_v32, main_v33, main_v34, main_v35, main_v36, main_v37, main_v38, main_v39, main_v40]

theorem w_norm0 : Writes (opsNorm0 (F := F)) W_Norm0 := by repeat constructor

theorem stage_norm0 (V : Valuation τ sig (Elt F)) :
    after opsNorm0 V (no_index (Proc.devRef .tc main_v40)) = normT256 (V (Proc.devRef .tc main_arg4)) (V (Proc.devRef .tc main_arg5)) (V (Proc.devRef .tc main_v21)) (V (Proc.devRef .tc main_v24)) (V (Proc.devRef .tc main_v25)) := by
  simp only [opsNorm0]
  after_results_simp
  rfl

def opsLin1 : List (HloOp τ sig (Elt F)) :=
  [ binary main_v40 main_arg6 main_v41 (fun l r => Host.dotGeneral dot_S262144x256_S256x256_S262144x256_1_0_0_1_n_n none l r),
    unary main_arg7 main_v42 (broadcastInDim S1x256 ![1] bcast_S256_S1x256_1),
    unary main_v42 main_v43 (broadcastInDim S262144x256 ![0, 1] bcast_S1x256_S262144x256_0_1),
    binary main_v41 main_v43 main_v44 addf,
    TRef.nullary main_call2.cst (constant S_ .f32 0x00000000#32),
    TRef.unary main_call2.cst main_call2.v0 (broadcastInDim S262144x256 ![] bcast_S_S262144x256),
    TRef.binary (TRef.of (T := ⟨S262144x256, .f32⟩) main_v44) main_call2.v0 main_call2.v1 maximumf ]

abbrev W_Lin1 : List (Ref sig .tc) := [main_v41, main_v42, main_v43, main_v44, main_call2.cst.ref, main_call2.v0.ref, main_call2.v1.ref]

theorem w_lin1 : Writes (opsLin1 (F := F)) W_Lin1 := by repeat constructor

theorem stage_lin1 (V : Valuation τ sig (Elt F)) :
    after opsLin1 V (no_index (Proc.devRef .tc main_v45)) = lin1T (V (Proc.devRef .tc main_v40)) (V (Proc.devRef .tc main_arg6)) (V (Proc.devRef .tc main_arg7)) := by
  simp only [opsLin1]
  after_results_simp
  rfl

def opsMean1 : List (HloOp τ sig (Elt F)) :=
  [ nullary main_cst_6 (constant S_ .f32 0x00000000#32),
    binary main_v45 main_cst_6 main_v46 (fun x v => Host.reduceAdd x v reducesTo_S262144x256_S256_d0 h_S_),
    nullary main_cst_7 (constant S_ .f32 0x48800000#32),
    unary main_cst_7 main_v47 (broadcastInDim S256 ![] bcast_S_S256),
    binary main_v46 main_v47 main_v48 Host.divf ]

abbrev W_Mean1 : List (Ref sig .tc) := [main_cst_6, main_v46, main_cst_7, main_v47, main_v48]

theorem w_mean1 : Writes (opsMean1 (F := F)) W_Mean1 := by repeat constructor

theorem stage_mean1 (V : Valuation τ sig (Elt F)) :
    after opsMean1 V (no_index (Proc.devRef .tc main_v48)) = meanT256 (V (Proc.devRef .tc main_v45)) := by
  simp only [opsMean1]
  after_results_simp
  rfl

def opsVar1 : List (HloOp τ sig (Elt F)) :=
  nullary main_c_8 (constantI S_ 32 0#32) :: opsVar (.of main_v45) (.of main_c_8) main_call3

abbrev W_Var1 : List (Ref sig .tc) := main_c_8 :: wVar main_call3

theorem w_var1 : Writes (opsVar1 (F := F)) W_Var1 := .cons ⟨rfl, rfl⟩ (w_var ..)

theorem stage_var1 (V : Valuation τ sig (Elt F)) :
    after opsVar1 V (no_index (Proc.devRef .tc main_v49)) = varT256 (V (Proc.devRef .tc main_v45)) := by
  simp only [opsVar1, opsVar]
  after_results_simp
  rfl

def opsNorm1 : List (HloOp τ sig (Elt F)) :=
  [ unary main_v48 main_v50 (broadcastInDim S1x256 ![1] bcast_S256_S1x256_1),
    unary main_v50 main_v51 (broadcastInDim S262144x256 ![0, 1] bcast_S1x256_S262144x256_0_1),
    binary main_v45 main_v51 main_v52 subf,
    unary main_arg8 main_v53 (broadcastInDim S1x256 ![1] bcast_S256_S1x256_1),
    unary main_v53 main_v54 (broadcastInDim S262144x256 ![0, 1] bcast_S1x256_S262144x256_0_1),
    binary main_v54 main_v52 main_v55 mulf,
    nullary main_cst_9 (constant S_ .f32 0x3727C5AC#32),
    unary main_cst_9 main_v56 (broadcastInDim S256 ![] bcast_S_S256),
    binary main_v49 main_v56 main_v57 addf,
    unary main_v57 main_v58 Host.rsqrt,
    unary main_v58 main_v59 (broadcastInDim S1x256 ![1] bcast_S256_S1x256_1),
    unary main_v59 main_v60 (broadcastInDim S262144x256 ![0, 1] bcast_S1x256_S262144x256_0_1),
    binary main_v55 main_v60 main_v61 mulf,
    unary main_arg9 main_v62 (broadcastInDim S1x256 ![1] bcast_S256_S1x256_1),
    unary main_v62 main_v63 (broadcastInDim S262144x256 ![0, 1] bcast_S1x256_S262144x256_0_1),
    binary main_v61 main_v63 main_v64 addf ]

abbrev W_Norm1 : List (Ref sig .tc) := [main_v50, main_v51, main_v52, main_v53, main_v54, main_v55, main_cst_9, main_v56, main_v57, main_v58, main_v59, main_v60, main_v61, main_v62, main_v63, main_v64]

theorem w_norm1 : Writes (opsNorm1 (F := F)) W_Norm1 := by repeat constructor

theorem stage_norm1 (V : Valuation τ sig (Elt F)) :
    after opsNorm1 V (no_index (Proc.devRef .tc main_v64)) = normT256 (V (Proc.devRef .tc main_arg8)) (V (Proc.devRef .tc main_arg9)) (V (Proc.devRef .tc main_v45)) (V (Proc.devRef .tc main_v48)) (V (Proc.devRef .tc main_v49)) := by
  simp only [opsNorm1]
  after_results_simp
  rfl

def opsLin2 : List (HloOp τ sig (Elt F)) :=
  [ binary main_v64 main_arg10 main_v65 (fun l r => Host.dotGeneral dot_S262144x256_S256x128_S262144x128_1_0_0_1_n_n none l r),
    unary main_arg11 main_v66 (broadcastInDim S1x128 ![1] bcast_S128_S1x128_1),
    unary main_v66 main_v67 (broadcastInDim S262144x128 ![0, 1] bcast_S1x128_S262144x128_0_1),
    binary main_v65 main_v67 main_v68 addf,
    TRef.nullary main_call4.cst (constant S_ .f32 0x00000000#32),
    TRef.unary main_call4.cst main_call4.v0 (broadcastInDim S262144x128 ![] bcast_S_S262144x128),
    TRef.binary (TRef.of (T := ⟨S262144x128, .f32⟩) main_v68) main_call4.v0 main_call4.v1 maximumf ]

abbrev W_Lin2 : List (Ref sig .tc) := [main_v65, main_v66, main_v67, main_v68, main_call4.cst.ref, main_call4.v0.ref, main_call4.v1.ref]

theorem w_lin2 : Writes (opsLin2 (F := F)) W_Lin2 := by repeat constructor

theorem stage_lin2 (V : Valuation τ sig (Elt F)) :
    after opsLin2 V (no_index (Proc.devRef .tc main_v69)) = lin2T (V (Proc.devRef .tc main_v64)) (V (Proc.devRef .tc main_arg10)) (V (Proc.devRef .tc main_arg11)) := by
  simp only [opsLin2]
  after_results_simp
  rfl

def opsMean2 : List (HloOp τ sig (Elt F)) :=
  [ nullary main_cst_10 (constant S_ .f32 0x00000000#32),
    binary main_v69 main_cst_10 main_v70 (fun x v => Host.reduceAdd x v reducesTo_S262144x128_S128_d0 h_S_),
    nullary main_cst_11 (constant S_ .f32 0x48800000#32),
    unary main_cst_11 main_v71 (broadcastInDim S128 ![] bcast_S_S128),
    binary main_v70 main_v71 main_v72 Host.divf ]

abbrev W_Mean2 : List (Ref sig .tc) := [main_cst_10, main_v70, main_cst_11, main_v71, main_v72]

theorem w_mean2 : Writes (opsMean2 (F := F)) W_Mean2 := by repeat constructor

theorem stage_mean2 (V : Valuation τ sig (Elt F)) :
    after opsMean2 V (no_index (Proc.devRef .tc main_v72)) = meanT128 (V (Proc.devRef .tc main_v69)) := by
  simp only [opsMean2]
  after_results_simp
  rfl

def opsVar2 : List (HloOp τ sig (Elt F)) :=
  [ nullary main_c_12 (constantI S_ 32 0#32),
    TRef.nullary main_call5.cst (constant S_ .f32 0x00000000#32),
    TRef.binary (TRef.of (T := ⟨S262144x128, .f32⟩) main_v69) main_call5.cst main_call5.v0 (fun x v => Host.reduceAdd x v reducesTo_S262144x128_S128_d0 h_S_),
    TRef.unary main_call5.v0 main_call5.v1 (broadcastInDim S1x128 ![1] bcast_S128_S1x128_1),
    TRef.nullary main_call5.cst_0 (constant S_ .f32 0x48800000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S262144x128 ![0, 1] bcast_S1x128_S262144x128_0_1),
    TRef.binary (TRef.of (T := ⟨S262144x128, .f32⟩) main_v69) main_call5.v4 main_call5.v5 subf,
    TRef.binary main_call5.v5 main_call5.v5 main_call5.v6 mulf,
    TRef.unary (TRef.of (T := ⟨S_, .i32⟩) main_c_12) main_call5.v7 (sitofp .f32),
    TRef.nullary main_call5.cst_1 (constant S_ .f32 0x48800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S262144x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b) ]

abbrev W_Var2 : List (Ref sig .tc) := [main_c_12, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref]

theorem w_var2 : Writes (opsVar2 (F := F)) W_Var2 := by repeat constructor

theorem stage_var2 (V : Valuation τ sig (Elt F)) :
    after opsVar2 V (no_index (Proc.devRef .tc main_v73)) = varT128 (V (Proc.devRef .tc main_v69)) := by
  simp only [opsVar2]
  after_results_simp
  rfl

def opsNorm2 : List (HloOp τ sig (Elt F)) :=
  [ unary main_v72 main_v74 (broadcastInDim S1x128 ![1] bcast_S128_S1x128_1),
    unary main_v74 main_v75 (broadcastInDim S262144x128 ![0, 1] bcast_S1x128_S262144x128_0_1),
    binary main_v69 main_v75 main_v76 subf,
    unary main_arg12 main_v77 (broadcastInDim S1x128 ![1] bcast_S128_S1x128_1),
    unary main_v77 main_v78 (broadcastInDim S262144x128 ![0, 1] bcast_S1x128_S262144x128_0_1),
    binary main_v78 main_v76 main_v79 mulf,
    nullary main_cst_13 (constant S_ .f32 0x3727C5AC#32),
    unary main_cst_13 main_v80 (broadcastInDim S128 ![] bcast_S_S128),
    binary main_v73 main_v80 main_v81 addf,
    unary main_v81 main_v82 Host.rsqrt,
    unary main_v82 main_v83 (broadcastInDim S1x128 ![1] bcast_S128_S1x128_1),
    unary main_v83 main_v84 (broadcastInDim S262144x128 ![0, 1] bcast_S1x128_S262144x128_0_1),
    binary main_v79 main_v84 main_v85 mulf,
    unary main_arg13 main_v86 (broadcastInDim S1x128 ![1] bcast_S128_S1x128_1),
    unary main_v86 main_v87 (broadcastInDim S262144x128 ![0, 1] bcast_S1x128_S262144x128_0_1),
    binary main_v85 main_v87 main_v88 addf ]

abbrev W_Norm2 : List (Ref sig .tc) := [main_v74, main_v75, main_v76, main_v77, main_v78, main_v79, main_cst_13, main_v80, main_v81, main_v82, main_v83, main_v84, main_v85, main_v86, main_v87, main_v88]

theorem w_norm2 : Writes (opsNorm2 (F := F)) W_Norm2 := by repeat constructor

theorem stage_norm2 (V : Valuation τ sig (Elt F)) :
    after opsNorm2 V (no_index (Proc.devRef .tc main_v88)) = normT128 (V (Proc.devRef .tc main_arg12)) (V (Proc.devRef .tc main_arg13)) (V (Proc.devRef .tc main_v69)) (V (Proc.devRef .tc main_v72)) (V (Proc.devRef .tc main_v73)) := by
  simp only [opsNorm2]
  after_results_simp
  rfl

def opsOut : List (HloOp τ sig (Elt F)) :=
  [ binary main_v88 main_arg14 main_v89 (fun l r => Host.dotGeneral dot_S262144x128_S128x1_S262144x1_1_0_0_1_n_n none l r),
    unary main_arg15 main_v90 (broadcastInDim S1x1 ![1] bcast_S1_S1x1_1),
    unary main_v90 main_v91 (broadcastInDim S262144x1 ![0, 1] bcast_S1x1_S262144x1_0_1),
    binary main_v89 main_v91 main_v92 addf ]

abbrev W_Out : List (Ref sig .tc) := [main_v89, main_v90, main_v91, main_v92]

theorem w_out : Writes (opsOut (F := F)) W_Out := by repeat constructor

theorem stage_out (V : Valuation τ sig (Elt F)) :
    after opsOut V (no_index (Proc.devRef .tc main_v92)) = outT (V (Proc.devRef .tc main_v88)) (V (Proc.devRef .tc main_arg14)) (V (Proc.devRef .tc main_arg15)) := by
  simp only [opsOut]
  after_results_simp
  rfl

def opsAll : List (HloOp τ sig (Elt F)) :=
  opsEmb ++ (opsLin0 ++ (opsMean0 ++ (opsVar0 ++ (opsNorm0 ++ (opsLin1 ++ (opsMean1 ++ (opsVar1 ++ (opsNorm1 ++ (opsLin2 ++ (opsMean2 ++ (opsVar2 ++ (opsNorm2 ++ (opsOut)))))))))))))

def win0 : List (HloOp τ sig (Elt F)) :=
  opsEmb ++ (opsLin0 ++ (opsMean0 ++ (opsVar0 ++ (opsNorm0 ++ (opsLin1 ++ (opsMean1 ++ [nullary main_c_8 (constantI S_ 32 0#32)]))))))

def win1 : List (HloOp τ sig (Elt F)) :=
  opsVar (.of main_v45) (.of main_c_8) main_call3 ++ (opsNorm1 ++ (opsLin2 ++ (opsMean2 ++ (opsVar2 ++ (opsNorm2 ++ opsOut)))))

theorem win_eq : (win0 ++ win1 : List (HloOp τ sig (Elt F))) = opsAll := by
  simp only [win0, win1, opsAll, opsVar1, List.append_assoc, List.cons_append, List.nil_append]

set_option maxRecDepth 8192 in
set_option maxHeartbeats 4000000 in
theorem part0_eq (c : Dev nD) : main_part0 (F := F) c = seq win0 := by
  simp only [main_part0, fn_relu.body, fn_var.body, fn_where.body, win0, opsEmb, opsLin0, opsMean0, opsVar0, opsVar, opsNorm0, opsLin1, opsMean1,
    List.cons_append, List.nil_append, seq, bind_assoc, pure_bind]
  rfl

set_option maxRecDepth 8192 in
set_option maxHeartbeats 4000000 in
theorem part1_eq (c : Dev nD) : main_part1 (F := F) c = seq win1 := by
  simp only [main_part1, fn_relu_0.body, fn_var.body, fn_var_1.body, fn_where.body, fn_where_2.body, win1, opsVar,
    opsNorm1, opsLin2, opsMean2, opsVar2, opsNorm2, opsOut, List.cons_append, List.nil_append, seq, bind_assoc, pure_bind]
  rfl

theorem main_eq (c : Dev nD) : main (F := F) c = seq opsAll := by
  rw [← win_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem sub_all : (opsAll : List (HloOp τ sig (Elt F))).Forall fun op => op.bufs ⊆ tcRefs τ sig := by
  simp only [opsAll, opsEmb, opsLin0, opsMean0, opsVar0, opsNorm0, opsLin1, opsMean1, opsVar1, opsNorm1, opsLin2, opsMean2, opsVar2, opsNorm2, opsOut, opsVar, List.cons_append, List.nil_append, List.Forall,
    nullary_bufs_sub, unary_bufs_sub, binary_bufs_sub, ternary_bufs_sub, reshape_bufs_sub, and_self]

abbrev W_All : List (Ref sig .tc) :=
  W_Emb ++ (W_Lin0 ++ (W_Mean0 ++ (W_Var0 ++ (W_Norm0 ++ (W_Lin1 ++ (W_Mean1 ++ (W_Var1 ++ (W_Norm1 ++ (W_Lin2 ++ (W_Mean2 ++ (W_Var2 ++ (W_Norm2 ++ (W_Out)))))))))))))

theorem w_all : Writes (opsAll (F := F)) W_All :=
  List.rel_append w_emb <| List.rel_append w_lin0 <| List.rel_append w_mean0 <| List.rel_append w_var0 <| List.rel_append w_norm0 <| List.rel_append w_lin1 <| List.rel_append w_mean1 <| List.rel_append w_var1 <| List.rel_append w_norm1 <| List.rel_append w_lin2 <| List.rel_append w_mean2 <| List.rel_append w_var2 <| List.rel_append w_norm2 w_out

theorem out_eq (V : Valuation τ sig (Elt F)) :
    after opsAll V (Proc.devRef .tc main_v92) = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [opsAll, after_append]
  simp (disch := decide) only [stage_emb, stage_lin0, stage_mean0, stage_var0, stage_norm0, stage_lin1, stage_mean1, stage_var1, stage_norm1, stage_lin2, stage_mean2, stage_var2, stage_norm2, stage_out,
    keep w_emb, keep w_lin0, keep w_mean0, keep w_var0, keep w_norm0, keep w_lin1, keep w_mean1, keep w_var1, keep w_norm1, keep w_lin2, keep w_mean2, keep w_var2, keep w_norm2, keep w_out]
  rfl

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v92) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => by
      refine ⟨(h c _).trans (out_eq _), ?_⟩
      and_intros <;> exact (h c _).trans (keep w_all _ (by decide)))
    (run_seq scopedRefs_eq scopedSems_eq defs main (fun _ => opsAll) main_eq (fun _ => sub_all) m ρ fun _ => fresh_of w_all)

end Cert.ReferenceIdeal.Hand

end
-- ==== Proof.LibHostDot.lean ====
import proofs.«426721_j37477884625195_1_alg».proof.Proof.LibPlainMatmul

noncomputable section

namespace Cert.Dots

open Idealize.ShloMosaic Idealize.ShloMosaic.ValueIdx

variable {M K N : ℕ}

-- Entry (r, c) of the host's plain product is the sum over k of a (r, k) * b (k, c).
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  exact Finset.sum_congr rfl fun k _ => by
    rw [(Cert.PlainMatmul.idx_eq r c k).1, (Cert.PlainMatmul.idx_eq r c k).2]

end Cert.Dots

end
-- ==== Proof.Ref.Val.lean ====
import proofs.«426721_j37477884625195_1_alg».proof.Proof.SpecLemmas
import proofs.«426721_j37477884625195_1_alg».proof.Proof.LibHostDot
import proofs.«426721_j37477884625195_1_alg».proof.Proof.Ref.Term
import Idealize.ShloMosaic.Lib.StableHlo.Predicate
import Idealize.ShloMosaic.Lib.Pipeline.Value
import Idealize.ShloMosaic.Lib.IdealHost
import Idealize.ShloMosaic.Lib.KernelVsHost
import Idealize.ShloMosaic.PureOps.Ideal.Laws

noncomputable section

namespace Cert.ReferenceIdeal.RefVal

open Idealize.ShloMosaic Idealize.ShloMosaic.ValueIdx Cert.ReferenceIdeal Cert.ReferenceIdeal.Hand

variable [Facts] {α : Type} {K N : Nat}

/-- An index that is not negative is left where it is. -/
theorem wrapT_apply {s : Shape} (c : BitVec 32) (a : IVec s 32) (j : s.Idx) (h0 : 0 ≤ (a j).toInt) :
    wrapT c a j = a j := by
  show Scalar.select (IntOp.cmpi .slt (a j) 0#32) (IntOp.addi (a j) c) (a j) = _
  rw [show IntOp.cmpi .slt (a j) 0#32 = 0#1 by simp [IntOp.cmpi, BitVec.slt_eq_decide, not_lt.mpr h0], select_zero]

/-- A vector laid along one row: at (0, n) it is the vector at n. -/
theorem bcast_row_apply (h₁ : (⟨1, ![N]⟩ : Shape).BroadcastsInDim ⟨2, ![1, N]⟩ ![1])
    (v : (⟨1, ![N]⟩ : Shape).Idx → α) (z : Fin 1) (n : Fin N) :
    broadcastInDim ⟨2, ![1, N]⟩ ![1] h₁ v (ix2 z n) = v (ix1 n) :=
  broadcastInDim_apply _ h₁ v _ _ fun a => by
    match a with
    | ⟨0, _⟩ => show n.val = if N = 1 then 0 else n.val; split <;> omega

/-- The lookup at (b, t, e) reads the tables at the pair's two components, each signed and clamped into its axis, and at e. -/
theorem gather_tab_apply (x : S17x512x16.Idx → α) (idx : IVec S262144x17x2 32) (b : Fin 262144) (t : Fin 17) (e : Fin 16) :
    Host.gather gather_S17x512x16_S262144x17x2_S262144x17x16_2_01_n_n_01_2_1116 x idx (ix3 b t e)
      = x (ix3 (⟨min (idx (ix3 b t ⟨0, by decide⟩)).toInt.toNat 16, by omega⟩ : Fin 17)
          (⟨min (idx (ix3 b t ⟨1, by decide⟩)).toInt.toNat 511, by omega⟩ : Fin 512) e) := by
  unfold Host.gather
  congr 1
  funext a
  refine Fin.ext ?_
  show _ + _ + _ = _
  rw [GatherDims.batchCoord_eq_zero _ _ _ List.not_mem_nil, Nat.add_zero]
  unfold GatherDims.start
  match a with
  | ⟨0, _⟩ | ⟨1, _⟩ =>
    rw [GatherDims.offCoord_eq_zero _ _ _ (fun h => ((GatherDims.mem_sKept _ _).mp h).1 (List.mem_of_elem_eq_true rfl)), Nat.add_zero,
      dif_pos (List.mem_of_elem_eq_true rfl)]
    exact congrArg (fun i => min (idx i).toInt.toNat _) (funext fun c => Fin.ext (by match c with | ⟨0, _⟩ | ⟨1, _⟩ | ⟨2, _⟩ => rfl))
  | ⟨2, _⟩ =>
    rw [dif_neg, Nat.zero_add]
    · rfl
    · exact fun h => Bool.false_ne_true (List.elem_eq_true_of_mem h)

theorem bcast_unit3_apply (h : S262144x17.BroadcastsInDim S262144x17x1 ![0, 1]) (v : S262144x17.Idx → α)
    (b : Fin 262144) (t : Fin 17) (z : Fin 1) :
    broadcastInDim S262144x17x1 ![0, 1] h v (ix3 b t z) = v (ix2 b t) := by
  refine broadcastInDim_apply _ h v _ _ fun a => ?_
  match a with
  | ⟨0, _⟩ | ⟨1, _⟩ => rfl

/-- The 17 rows of 16 laid side by side: column k of row b is entry k % 16 of piece k / 16. -/
theorem reshape_apply (h : S262144x17x16.ShapeCasts S262144x272) (x : S262144x17x16.Idx → α) (b : Fin 262144) (k : Fin 272) :
    shapeCast S262144x272 x h (ix2 b k)
      = x (ix3 b (⟨k.val / 16, by omega⟩ : Fin 17) (⟨k.val % 16, Nat.mod_lt _ (by norm_num)⟩ : Fin 16)) := by
  refine shapeCast_apply x h _ _ ?_
  rw [Shape.rowMajor_val_three, Shape.rowMajor_val_two]
  show (b.val * 17 + k.val / 16) * 16 + k.val % 16 = b.val * 272 + k.val
  omega

/-- The row count is above zero, so the comparison that guards the variance's quotient holds. -/
theorem cB_gt : FloatOps.cmpf (F := Ideal) .ogt Cert.Spec.cB (Ideal.ofBits .f32 0x00000000#32) = 1#1 := by
  show Ideal.cmp .ogt Cert.Spec.cB (Ideal.ofBits .f32 0x00000000#32) = 1#1
  rw [Ideal.ofBits_zero_f32, Cert.Spec.cB_eq]
  unfold Ideal.cmp
  have : (0 : EReal) < ((262144 : ℝ) : EReal) := by exact_mod_cast (by norm_num : (0 : ℝ) < 262144)
  simp [this]

theorem rowT_apply (x : FVec Ideal ⟨1, ![N]⟩ .f32) (r : Fin 262144) (n : Fin N) : rowT x (ix2 r n) = x (ix1 n) := by
  unfold rowT
  rw [broadcastInDim_oneRow_apply, bcast_row_apply]

theorem affT_apply (h : FVec Ideal ⟨2, ![262144, K]⟩ .f32) (W : FVec Ideal ⟨2, ![K, N]⟩ .f32) (b : FVec Ideal ⟨1, ![N]⟩ .f32)
    (r : Fin 262144) (n : Fin N) : affT h W b (ix2 r n) = (∑ k, h (ix2 r k) * W (ix2 k n)) + b (ix1 n) := by
  unfold affT
  rw [addf_apply, Cert.Dots.hostDot_apply, rowT_apply]

theorem linT_eq (h : FVec Ideal ⟨2, ![262144, K]⟩ .f32) (W : FVec Ideal ⟨2, ![K, N]⟩ .f32) (b : FVec Ideal ⟨1, ![N]⟩ .f32) :
    (fun r n => linT h W b (ix2 r n))
      = Cert.Spec.lin (fun r k => h (ix2 r k)) (fun k n => W (ix2 k n)) (fun n => b (ix1 n)) := by
  funext r n
  unfold linT
  rw [maximumf_apply, affT_apply, broadcastInDim_scalar_apply, constant_apply, Ideal.ofBits_zero_f32]
  rfl

/-- A column's sum from zero is the sum of its entries over the rows. -/
theorem sumT_apply (h : FVec Ideal ⟨2, ![262144, N]⟩ .f32) (n : Fin N) : sumT h (ix1 n) = ∑ r, h (ix2 r n) := by
  have hR : (⟨2, ![262144, N]⟩ : Shape).Reduces [0] ⟨1, ![N]⟩ := ⟨rfl, Nat.one_pos, (redRows _ N).2⟩
  unfold sumT
  rw [hostReduceAdd_apply, Ideal.hostReduceAdd_single _ hR, constant_apply, Ideal.ofBits_zero_f32, zero_add]
  refine Finset.sum_congr rfl fun r _ => congrArg h (funext fun c => Fin.ext ?_)
  match c with
  | ⟨0, _⟩ | ⟨1, _⟩ => rfl

theorem meanT_eq (h : FVec Ideal ⟨2, ![262144, N]⟩ .f32) :
    (fun n => meanT h (ix1 n)) = Cert.Spec.mean (fun r k => h (ix2 r k)) := by
  funext n
  unfold meanT
  rw [hostDivf_apply, sumT_apply, broadcastInDim_scalar_apply]
  rfl

theorem devT_apply (h : FVec Ideal ⟨2, ![262144, N]⟩ .f32) (r : Fin 262144) (n : Fin N) :
    devT h (ix2 r n) = h (ix2 r n) - Cert.Spec.mean (fun r k => h (ix2 r k)) n := by
  unfold devT
  rw [subf_apply, broadcastInDim_oneRow_apply, hostDivf_apply, bcast_row_apply, sumT_apply, broadcastInDim_scalar_apply]
  rfl

/-- The divisor the reference writes, the row count less a zero, is the row count. -/
theorem ddofT_eq : ddofT (F := Ideal) ix0 = Cert.Spec.cB := by
  show Cert.Spec.cB - (((0#32 : BitVec 32).toInt : ℝ) : EReal) = Cert.Spec.cB
  simp

theorem varT_eq (h : FVec Ideal ⟨2, ![262144, N]⟩ .f32) :
    (fun n => varT h (ix1 n)) = Cert.Spec.varR (fun r k => h (ix2 r k)) := by
  funext n
  unfold varT
  rw [select_apply, broadcastInDim_scalar_apply, broadcastInDim_scalar_apply, hostDivf_apply, broadcastInDim_scalar_apply, cmpf_apply,
    ddofT_eq, constant_apply, cB_gt, select_one, sumT_apply]
  simp only [mulf_apply, devT_apply]
  rfl

theorem bnT_eq (g be : FVec Ideal ⟨1, ![N]⟩ .f32) (h : FVec Ideal ⟨2, ![262144, N]⟩ .f32) :
    (fun r n => normT g be h (meanT h) (varT h) (ix2 r n))
      = Cert.Spec.bnR (fun n => g (ix1 n)) (fun n => be (ix1 n)) (fun r k => h (ix2 r k)) := by
  funext r n
  unfold normT Cert.Spec.bnR
  rw [addf_apply, mulf_apply, mulf_apply, subf_apply, rowT_apply, rowT_apply, rowT_apply, rowT_apply, ← meanT_eq, ← varT_eq]
  rfl

theorem outT_eq (h : Vec Ideal S262144x128 .f32) (W : Vec Ideal S128x1 .f32) (b : Vec Ideal S1 .f32) (r : Fin 262144) :
    outT (F := Ideal) h W b (ix2 r 0)
      = Cert.Spec.out (fun r k => h (ix2 r k)) (fun k n => W (ix2 k n)) (fun n => b (ix1 n)) r :=
  affT_apply h W b r 0

/-- An index in [0, 512), clamped into [0, 511], is itself. -/
theorem clamp_of_range (v : BitVec 32) (h0 : 0 ≤ v.toInt) (h1 : v.toInt < 512) : min v.toInt.toNat 511 = v.toNat % 512 := by
  have hc := BitVec.toInt_eq_toNat_cond v
  have hlt := v.isLt
  split at hc <;> omega

/-- The pair read at (b, t): first the table number t, which is not negative … -/
theorem idxT_apply_fst (a0 : IVec S262144x17 32) (b : Fin 262144) (t : Fin 17) :
    idxT a0 (ix3 b t ⟨0, by decide⟩) = BitVec.ofNat 32 t.val := by
  unfold idxT
  refine (concatenate_pair_apply_left (t := S262144x17x2) (s₁ := S262144x17x1) (s₂ := S262144x17x1) (2 : Fin 3) _ _ _ _ rfl (ix3 b t (0 : Fin 1)) fun a => ?_).trans ?_
  · match a with
    | ⟨0, _⟩ | ⟨1, _⟩ | ⟨2, _⟩ => rfl
  rw [bcast_unit3_apply, broadcastInDim_apply _ Facts₀.bcast_S17_S262144x17_1 _ _ (ix1 t) fun a => by match a with | ⟨0, _⟩ => rfl]
  refine wrapT_apply _ _ _ ?_
  show 0 ≤ (BitVec.ofNat 32 t.val).toInt
  rw [StableHlo.Predicate.toInt_ofNat_small _ (by omega)]
  omega

/-- … then the row index x[b, t]. -/
theorem idxT_apply_snd (a0 : IVec S262144x17 32) (b : Fin 262144) (t : Fin 17) (h0 : 0 ≤ (a0 (ix2 b t)).toInt) :
    idxT a0 (ix3 b t ⟨1, by decide⟩) = a0 (ix2 b t) := by
  unfold idxT
  refine (concatenate_pair_apply_right (t := S262144x17x2) (s₁ := S262144x17x1) (s₂ := S262144x17x1) (2 : Fin 3) _ _ _ _ rfl rfl (ix3 b t (0 : Fin 1)) (fun a ha => ?_) rfl).trans ?_
  · match a with
    | ⟨0, _⟩ | ⟨1, _⟩ => rfl
    | ⟨2, _⟩ => exact absurd rfl ha
  rw [bcast_unit3_apply, wrapT_apply _ a0 _ h0]

/-- Column k of row b of the looked-up features is entry k % 16 of row x[b, k / 16] of table k / 16. -/
theorem embT_eq (a0 : Vec Ideal S262144x17 .i32) (a1 : Vec Ideal S17x512x16 .f32)
    (hx : ∀ b t, 0 ≤ (a0 (ix2 b t)).toInt ∧ (a0 (ix2 b t)).toInt < 512) :
    (fun b k => embT (F := Ideal) a0 a1 (ix2 b k))
      = Cert.Spec.emb (fun b t => a0 (ix2 b t)) (fun t r e => a1 (ix3 t r e)) := by
  funext b k
  unfold embT
  rw [reshape_apply, gather_tab_apply]
  unfold Cert.Spec.emb
  have hk := k.isLt
  congr 1
  funext a
  refine Fin.ext ?_
  match a with
  | ⟨0, _⟩ =>
    show min (idxT a0 (ix3 b (⟨k.val / 16, by omega⟩ : Fin 17) ⟨0, by decide⟩)).toInt.toNat 16 = k.val / 16
    rw [idxT_apply_fst, StableHlo.Predicate.toInt_ofNat_small _ (by show k.val / 16 < 2 ^ 31; omega)]
    show min ((k.val / 16 : Nat) : Int).toNat 16 = k.val / 16
    omega
  | ⟨1, _⟩ =>
    show min (idxT a0 (ix3 b (⟨k.val / 16, by omega⟩ : Fin 17) ⟨1, by decide⟩)).toInt.toNat 511 = _
    rw [idxT_apply_snd a0 b _ (hx b _).1]
    exact clamp_of_range _ (hx b _).1 (hx b _).2
  | ⟨2, _⟩ => rfl

/-- The reference's result at row b is the specification, its variance the mean of the squared deviations, when every row index lies in [0, 512). -/
theorem res_eq (a0 : Vec Ideal S262144x17 .i32) (a1 : Vec Ideal S17x512x16 .f32) (a2 : Vec Ideal S272x256 .f32)
    (a3 a4 a5 : Vec Ideal S256 .f32) (a6 : Vec Ideal S256x256 .f32) (a7 a8 a9 : Vec Ideal S256 .f32)
    (a10 : Vec Ideal S256x128 .f32) (a11 a12 a13 : Vec Ideal S128 .f32) (a14 : Vec Ideal S128x1 .f32) (a15 : Vec Ideal S1 .f32)
    (hx : ∀ b t, 0 ≤ (a0 (ix2 b t)).toInt ∧ (a0 (ix2 b t)).toInt < 512) (b : Fin 262144) :
    res (F := Ideal) a0 a1 a2 a3 a4 a5 a6 a7 a8 a9 a10 a11 a12 a13 a14 a15 (ix2 b 0)
      = Cert.Spec.GR (fun b t => a0 (ix2 b t)) (fun t r e => a1 (ix3 t r e)) (fun k n => a2 (ix2 k n)) (fun n => a3 (ix1 n))
          (fun n => a4 (ix1 n)) (fun n => a5 (ix1 n)) (fun k n => a6 (ix2 k n)) (fun n => a7 (ix1 n)) (fun n => a8 (ix1 n))
          (fun n => a9 (ix1 n)) (fun k n => a10 (ix2 k n)) (fun n => a11 (ix1 n)) (fun n => a12 (ix1 n)) (fun n => a13 (ix1 n))
          (fun k n => a14 (ix2 k n)) (fun n => a15 (ix1 n)) b := by
  unfold res Cert.Spec.GR Cert.Spec.h2R Cert.Spec.h1R Cert.Spec.h0 bnT128 bnT256 normT128 normT256
    meanT128 meanT256 varT128 varT256 lin2T lin1T lin0T
  rw [outT_eq, bnT_eq, linT_eq, bnT_eq, linT_eq, bnT_eq, linT_eq, embT_eq a0 a1 hx]

end Cert.ReferenceIdeal.RefVal
end
-- ==== Proof.PreFacts.lean ====
import proofs.«426721_j37477884625195_1_alg».proof.Defs
import Idealize.ShloMosaic.Lib.ReduceAll
import Idealize.ShloMosaic.Lib.ValueIdx
import Mathlib.Data.EReal.Basic

noncomputable section

namespace Cert.PreFacts

open Idealize.ShloMosaic Cert.Pre_finite_inputs

instance : Subsingleton S_.Idx := ⟨fun a b => funext fun d => d.elim0⟩

theorem ofBits_inf : Ideal.ofBits .f32 0x7F800000#32 = (⊤ : EReal) := by simp [Ideal.ofBits, Ideal.ieee]

-- |x| = max x (−x) < +∞ excludes both infinities.
theorem real_of_abs_lt_top (x : EReal) (h : max x (-x) < ⊤) : ∃ y : ℝ, x = (y : EReal) := by
  induction x using EReal.rec with
  | bot => simp at h
  | coe y => exact ⟨y, rfl⟩
  | top => simp at h

-- A reduction by ∧ from 1 that came out 1 says each entry's comparison is 1.
theorem real_of_all {s : Shape} {axes : List (Fin s.rank)} (a : FVec Ideal s .f32)
    (hb : S_.BroadcastsInDim s (![] : Fin 0 → Fin s.rank)) (hr : s.ReducesTo axes S_) (h0 : 0 < S_.numel)
    (h : Host.reduce IntOp.andi (cmpf .olt (Host.absf a) (broadcastInDim s ![] hb (constant (F := Ideal) S_ .f32 0x7F800000#32)))
          (constantI S_ 1 1#1) hr h0 ValueIdx.ix0 = 1#1) :
    ∀ i, ∃ y : ℝ, a i = (y : EReal) := by
  intro i
  have e := Host.reduce_andi_all _ _ hr h0 _ h i
  have e' : Ideal.cmp .olt (max (a i) (-(a i))) (Ideal.ofBits .f32 0x7F800000#32) = 1#1 := e
  rw [ofBits_inf] at e'
  unfold Ideal.cmp at e'
  by_cases hlt : max (a i) (-(a i)) < ⊤
  · exact real_of_abs_lt_top _ hlt
  · simp [hlt] at e'

theorem range_of_all {s : Shape} {axes : List (Fin s.rank)} (a : IVec s 32)
    (hb : S_.BroadcastsInDim s (![] : Fin 0 → Fin s.rank)) (hr : s.ReducesTo axes S_) (h0 : 0 < S_.numel)
    (hge : Host.reduce IntOp.andi (cmpi .sge a (broadcastInDim s ![] hb (constantI S_ 32 0#32)))
          (constantI S_ 1 1#1) hr h0 ValueIdx.ix0 = 1#1)
    (hlt : Host.reduce IntOp.andi (cmpi .slt a (broadcastInDim s ![] hb (constantI S_ 32 512#32)))
          (constantI S_ 1 1#1) hr h0 ValueIdx.ix0 = 1#1) :
    ∀ i, 0 ≤ (a i).toInt ∧ (a i).toInt < 512 := by
  intro i
  have e1 : IntOp.cmpi .sge (a i) 0#32 = 1#1 := Host.reduce_andi_all _ _ hr h0 _ hge i
  have e2 : IntOp.cmpi .slt (a i) 512#32 = 1#1 := Host.reduce_andi_all _ _ hr h0 _ hlt i
  unfold IntOp.cmpi at e1 e2
  have z : (0#32 : BitVec 32).toInt = 0 := by decide
  have c : (512#32 : BitVec 32).toInt = 512 := by decide
  constructor
  · by_cases hh : (0#32 : BitVec 32).sle (a i) = true
    · simpa [BitVec.sle, z] using hh
    · simp [hh] at e1
  · by_cases hh : (a i).slt 512#32 = true
    · simpa [BitVec.slt, c] using hh
    · simp [hh] at e2

variable [Cert.Pre_finite_inputs.Facts]

theorem facts_of_pre
    (a0 : IVec S262144x17 32) (a1 : FVec Ideal S17x512x16 .f32) (a2 : FVec Ideal S272x256 .f32)
    (a3 : FVec Ideal S256 .f32) (a4 : FVec Ideal S256 .f32) (a5 : FVec Ideal S256 .f32)
    (a6 : FVec Ideal S256x256 .f32) (a7 : FVec Ideal S256 .f32) (a8 : FVec Ideal S256 .f32)
    (a9 : FVec Ideal S256 .f32) (a10 : FVec Ideal S256x128 .f32) (a11 : FVec Ideal S128 .f32)
    (a12 : FVec Ideal S128 .f32) (a13 : FVec Ideal S128 .f32) (a14 : FVec Ideal S128x1 .f32)
    (a15 : FVec Ideal S1 .f32)
    (h : Cert.Pre_finite_inputs.fn (F := Ideal) a0 a1 a2 a3 a4 a5 a6 a7 a8 a9 a10 a11 a12 a13 a14 a15 = (fun _ => 1#1)) :
    (∀ i, 0 ≤ (a0 i).toInt ∧ (a0 i).toInt < 512)
    ∧ (∀ i, ∃ y : ℝ, a1 i = (y : EReal)) ∧ (∀ i, ∃ y : ℝ, a2 i = (y : EReal))
    ∧ (∀ i, ∃ y : ℝ, a3 i = (y : EReal)) ∧ (∀ i, ∃ y : ℝ, a4 i = (y : EReal))
    ∧ (∀ i, ∃ y : ℝ, a5 i = (y : EReal)) ∧ (∀ i, ∃ y : ℝ, a6 i = (y : EReal))
    ∧ (∀ i, ∃ y : ℝ, a7 i = (y : EReal)) ∧ (∀ i, ∃ y : ℝ, a8 i = (y : EReal))
    ∧ (∀ i, ∃ y : ℝ, a9 i = (y : EReal)) ∧ (∀ i, ∃ y : ℝ, a10 i = (y : EReal))
    ∧ (∀ i, ∃ y : ℝ, a11 i = (y : EReal)) ∧ (∀ i, ∃ y : ℝ, a12 i = (y : EReal))
    ∧ (∀ i, ∃ y : ℝ, a13 i = (y : EReal)) ∧ (∀ i, ∃ y : ℝ, a14 i = (y : EReal))
    ∧ (∀ i, ∃ y : ℝ, a15 i = (y : EReal)) := by
  have e := congrFun h ValueIdx.ix0
  dsimp only [Cert.Pre_finite_inputs.fn, fn_part1, fn_part2, fn_part3, fn_part4, andi] at e
  simp only [IntOp.andi_eq_one] at e
  obtain ⟨⟨⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩, hge⟩, hlt⟩ := e
  exact ⟨range_of_all a0 _ _ _ hge hlt, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9, real_of_all a10 _ _ _ h10, real_of_all a11 _ _ _ h11,
    real_of_all a12 _ _ _ h12, real_of_all a13 _ _ _ h13, real_of_all a14 _ _ _ h14, real_of_all a15 _ _ _ h15⟩

-- A 32-bit word in [0, 512) signed is below 512 unsigned.
theorem toNat_lt_of_range (w : BitVec 32) (h0 : 0 ≤ w.toInt) (h : w.toInt < 512) : w.toNat < 512 := by
  have hw := w.isLt
  unfold BitVec.toInt at h0 h
  split at h <;> omega

end Cert.PreFacts

end
-- ==== Proof.lean ====
import proofs.«426721_j37477884625195_1_alg».proof.Defs
import proofs.«426721_j37477884625195_1_alg».proof.Proof.Gen.Kernel
import proofs.«426721_j37477884625195_1_alg».proof.Proof.Gen.KernelIdeal
import proofs.«426721_j37477884625195_1_alg».proof.Proof.Gen.ReferenceIdeal
import proofs.«426721_j37477884625195_1_alg».proof.Proof.Gen.Pre_finite_inputs
import proofs.«426721_j37477884625195_1_alg».proof.Proof.K.Run
import proofs.«426721_j37477884625195_1_alg».proof.Proof.KI.Run
import proofs.«426721_j37477884625195_1_alg».proof.Proof.KI.Value
import proofs.«426721_j37477884625195_1_alg».proof.Proof.Ref.Run
import proofs.«426721_j37477884625195_1_alg».proof.Proof.Ref.Val
import proofs.«426721_j37477884625195_1_alg».proof.Proof.PreFacts
import proofs.«426721_j37477884625195_1_alg».proof.Proof.SpecLemmas
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

-- Both runs end at the specification's function of the arguments; its two forms of the variance agree because every entry is real.
theorem algebraic : Cert.algebraic_KernelIdeal_ReferenceIdeal := by
  intro m ρ m' ρ' hpre hagree
  refine ⟨fun c => (Cert.KernelIdeal.Hand.dat3 (Cert.KernelIdeal.Hand.Ve3 m ρ) c).arrAt 7 Cert.KernelIdeal.cfg3.N,
    Cert.KernelIdeal.Hand.run_val m ρ, ?_⟩
  refine (θ_run Cert.ReferenceIdeal.defs _ _).mono (fun _ h c => ⟨(h c).1.trans ?_, (h c).2⟩)
    (Cert.ReferenceIdeal.Hand.run (F := Ideal) m' ρ')
  obtain ⟨hx, h1, h2, h3, h4, h5, h6, h7, h8, h9, h10, h11, h12, h13, h14, h15⟩ := Cert.PreFacts.facts_of_pre _ _ _ _ _ _ _ _ _ _ _ _ _ _ _ _ (hpre c)
  obtain ⟨e0, e1, e2, e3, e4, e5, e6, e7, e8, e9, e10, e11, e12, e13, e14, e15⟩ := hagree c
  rw [e0, e1, e2, e3, e4, e5, e6, e7, e8, e9, e10, e11, e12, e13, e14, e15]
  funext i
  obtain ⟨r, z, rfl⟩ : ∃ (r : Fin 262144) (z : Fin 1), i = ValueIdx.ix2 r z := ⟨i 0, i 1, ValueIdx.eq_ix2 i⟩
  obtain rfl : z = 0 := Subsingleton.elim _ _
  refine (Cert.ReferenceIdeal.RefVal.res_eq _ _ _ _ _ _ _ _ _ _ _ _ _ _ _ _ (fun b t => hx (ValueIdx.ix2 b t)) r).trans ?_
  refine (congrFun (Cert.Spec.GR_eq_G _ _ _ _ _ _ _ _ _ _ _ _ _ _ _ _
    (fun t q e => h1 (ValueIdx.ix3 t q e)) (fun k n => h2 (ValueIdx.ix2 k n)) (fun n => h3 (ValueIdx.ix1 n))
    (fun n => h4 (ValueIdx.ix1 n)) (fun n => h5 (ValueIdx.ix1 n)) (fun k n => h6 (ValueIdx.ix2 k n))
    (fun n => h7 (ValueIdx.ix1 n)) (fun n => h8 (ValueIdx.ix1 n)) (fun n => h9 (ValueIdx.ix1 n))
    (fun k n => h10 (ValueIdx.ix2 k n)) (fun n => h11 (ValueIdx.ix1 n)) (fun n => h12 (ValueIdx.ix1 n))
    (fun n => h13 (ValueIdx.ix1 n))) r).trans ?_
  exact (Cert.KernelIdeal.Val.kernel_val m ρ c
    (fun b t => Cert.PreFacts.toNat_lt_of_range _ (hx (ValueIdx.ix2 b t)).1 (hx (ValueIdx.ix2 b t)).2) r).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
